-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S1x64 : Shape := ⟨2, ![1, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S4x64 : Shape := ⟨2, ![4, 64]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S4x64 : S_.BroadcastsInDim S4x64 (![] : Fin 0 → Fin S4x64.rank)
  reducesTo_S4x64_S_d0_1 : S4x64.ReducesTo [0, 1] S_

variable [Facts]

def fn_part2 {F : FTy → Type} [FloatOps F] (main_arg9 : FVec F S3x64 .f32) (main_arg10 : FVec F S4x64 .f32) (main_arg11 : FVec F S4x64 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S4x64 .f32 := Host.absf main_arg10
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  let main_v44 : FVec F S4x64 .f32 := Host.absf main_arg11
  let main_cst_16 : FVec F S_ .f32 := constant S_ .f32 0x7F800000#32
  let main_v45 : FVec F S4x64 .f32 := broadcastInDim S4x64 ![] bcast_S_S4x64 main_cst_16
  let main_v46 : IVec S4x64 1 := cmpf .olt main_v44 main_v45
  let main_c_17 : IVec S_ 1 := constantI S_ 1 1#1
  let main_v47 : IVec S_ 1 := (fun x v => Host.reduce IntOp.andi x v reducesTo_S4x64_S_d0_1 h_S_) main_v46 main_c_17
  let main_v48 : IVec S_ 1 := andi main_v43 main_v47
  main_v48

def fn_part1 {F : FTy → Type} [FloatOps F] (main_arg6 : FVec F S3x64x64 .f32) (main_arg7 : FVec F S3x64 .f32) (main_arg8 : FVec F S3x64x64 .f32) (main_arg9 : FVec F S3x64 .f32) (main_arg10 : FVec F S4x64 .f32) (main_arg11 : FVec F S4x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x64x64 .f32 := Host.absf main_arg6
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64x64 .f32 := Host.absf main_arg8
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg9 main_arg10 main_arg11 main_v33

def fn {F : FTy → Type} [FloatOps F] (main_arg0 : IVec S1600000 32) (main_arg1 : IVec S1600000 32) (main_arg2 : FVec F S1x64 .f32) (main_arg3 : FVec F S64 .f32) (main_arg4 : FVec F S64x64 .f32) (main_arg5 : FVec F S64 .f32) (main_arg6 : FVec F S3x64x64 .f32) (main_arg7 : FVec F S3x64 .f32) (main_arg8 : FVec F S3x64x64 .f32) (main_arg9 : FVec F S3x64 .f32) (main_arg10 : FVec F S4x64 .f32) (main_arg11 : FVec F S4x64 .f32) : IVec S_ 1 :=
  let main_v0 : FVec F S1x64 .f32 := Host.absf main_arg2
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S1600000 : Shape := ⟨1, ![1600000]⟩
abbrev S1x64 : Shape := ⟨2, ![1, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S4x64 : Shape := ⟨2, ![4, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x1 : Shape := ⟨2, ![10000, 1]⟩
abbrev S10000x64 : Shape := ⟨2, ![10000, 64]⟩
abbrev S100000x64 : Shape := ⟨2, ![100000, 64]⟩
abbrev S1600000x64 : Shape := ⟨2, ![1600000, 64]⟩
abbrev S1x64x64 : Shape := ⟨3, ![1, 64, 64]⟩

abbrev nBuf : Space → Nat
  | .hbm => 187
  | .vmem => 80
  | .smem => 0
  | _ => 0

abbrev hbmTy0_0 (i : Nat) : BufTy := match i % 128 with
  | 0 => ⟨S1600000, .i32⟩
  | 1 => ⟨S1600000, .i32⟩
  | 2 => ⟨S1x64, .f32⟩
  | 3 => ⟨S64, .f32⟩
  | 4 => ⟨S64x64, .f32⟩
  | 5 => ⟨S64, .f32⟩
  | 6 => ⟨S3x64x64, .f32⟩
  | 7 => ⟨S3x64, .f32⟩
  | 8 => ⟨S3x64x64, .f32⟩
  | 9 => ⟨S3x64, .f32⟩
  | 10 => ⟨S4x64, .f32⟩
  | 11 => ⟨S4x64, .f32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S100000x1, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x1, .f32⟩
  | 28 => ⟨S_, .f32⟩
  | 29 => ⟨S100000x1, .f32⟩
  | 30 => ⟨S1600000x1, .i32⟩
  | 31 => ⟨S100000x1, .f32⟩
  | 32 => ⟨S100000x1, .f32⟩
  | 33 => ⟨S1x64, .f32⟩
  | 34 => ⟨S64, .f32⟩
  | 35 => ⟨S1x64, .f32⟩
  | 36 => ⟨S64, .f32⟩
  | 37 => ⟨S1x64, .f32⟩
  | 38 => ⟨S1x64, .f32⟩
  | 39 => ⟨S1x64, .f32⟩
  | 40 => ⟨S1x64, .f32⟩
  | 41 => ⟨S1x64, .f32⟩
  | 42 => ⟨S1x64, .f32⟩
  | 43 => ⟨S_, .f32⟩
  | 44 => ⟨S1x64, .f32⟩
  | 45 => ⟨S1x64, .f32⟩
  | 46 => ⟨S_, .f32⟩
  | 47 => ⟨S1x64, .f32⟩
  | 48 => ⟨S1x64, .f32⟩
  | 49 => ⟨S1x64, .f32⟩
  | 50 => ⟨S1x64, .f32⟩
  | 51 => ⟨S_, .f32⟩
  | 52 => ⟨S1x64, .f32⟩
  | 53 => ⟨S1x64, .f32⟩
  | 54 => ⟨S100000x64, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S100000x64, .f32⟩
  | 69 => ⟨S1x64x64, .f32⟩
  | 70 => ⟨S64x64, .f32⟩
  | 71 => ⟨S1x64, .f32⟩
  | 72 => ⟨S64, .f32⟩
  | 73 => ⟨S1x64x64, .f32⟩
  | 74 => ⟨S64x64, .f32⟩
  | 75 => ⟨S1x64, .f32⟩
  | 76 => ⟨S64, .f32⟩
  | 77 => ⟨S1x64, .f32⟩
  | 78 => ⟨S64, .f32⟩
  | 79 => ⟨S1x64, .f32⟩
  | 80 => ⟨S64, .f32⟩
  | 81 => ⟨S1x64, .f32⟩
  | 82 => ⟨S1x64, .f32⟩
  | 83 => ⟨S1x64, .f32⟩
  | 84 => ⟨S1x64, .f32⟩
  | 85 => ⟨S1x64, .f32⟩
  | 86 => ⟨S1x64, .f32⟩
  | 87 => ⟨S_, .f32⟩
  | 88 => ⟨S1x64, .f32⟩
  | 89 => ⟨S1x64, .f32⟩
  | 90 => ⟨S_, .f32⟩
  | 91 => ⟨S1x64, .f32⟩
  | 92 => ⟨S1x64, .f32⟩
  | 93 => ⟨S1x64, .f32⟩
  | 94 => ⟨S1x64, .f32⟩
  | 95 => ⟨S_, .f32⟩
  | 96 => ⟨S1x64, .f32⟩
  | 97 => ⟨S1x64, .f32⟩
  | 98 => ⟨S100000x64, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S_, .f32⟩
  | 109 => ⟨S100000x64, .f32⟩
  | 110 => ⟨S1600000x1, .i32⟩
  | 111 => ⟨S100000x64, .f32⟩
  | 112 => ⟨S100000x64, .f32⟩
  | 113 => ⟨S1x64x64, .f32⟩
  | 114 => ⟨S64x64, .f32⟩
  | 115 => ⟨S1x64, .f32⟩
  | 116 => ⟨S64, .f32⟩
  | 117 => ⟨S1x64x64, .f32⟩
  | 118 => ⟨S64x64, .f32⟩
  | 119 => ⟨S1x64, .f32⟩
  | 120 => ⟨S64, .f32⟩
  | 121 => ⟨S1x64, .f32⟩
  | 122 => ⟨S64, .f32⟩
  | 123 => ⟨S1x64, .f32⟩
  | 124 => ⟨S64, .f32⟩
  | 125 => ⟨S1x64, .f32⟩
  | 126 => ⟨S1x64, .f32⟩
  | 127 => ⟨S1x64, .f32⟩
  | _ => ⟨S1600000, .i32⟩

abbrev hbmTy0_1 (i : Nat) : BufTy := match i % 128 with
  | 0 => ⟨S1x64, .f32⟩
  | 1 => ⟨S1x64, .f32⟩
  | 2 => ⟨S1x64, .f32⟩
  | 3 => ⟨S_, .f32⟩
  | 4 => ⟨S1x64, .f32⟩
  | 5 => ⟨S1x64, .f32⟩
  | 6 => ⟨S_, .f32⟩
  | 7 => ⟨S1x64, .f32⟩
  | 8 => ⟨S1x64, .f32⟩
  | 9 => ⟨S1x64, .f32⟩
  | 10 => ⟨S1x64, .f32⟩
  | 11 => ⟨S_, .f32⟩
  | 12 => ⟨S1x64, .f32⟩
  | 13 => ⟨S1x64, .f32⟩
  | 14 => ⟨S100000x64, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x64, .f32⟩
  | 24 => ⟨S_, .f32⟩
  | 25 => ⟨S100000x64, .f32⟩
  | 26 => ⟨S1600000x1, .i32⟩
  | 27 => ⟨S100000x64, .f32⟩
  | 28 => ⟨S100000x64, .f32⟩
  | 29 => ⟨S1x64x64, .f32⟩
  | 30 => ⟨S64x64, .f32⟩
  | 31 => ⟨S1x64, .f32⟩
  | 32 => ⟨S64, .f32⟩
  | 33 => ⟨S1x64x64, .f32⟩
  | 34 => ⟨S64x64, .f32⟩
  | 35 => ⟨S1x64, .f32⟩
  | 36 => ⟨S64, .f32⟩
  | 37 => ⟨S1x64, .f32⟩
  | 38 => ⟨S64, .f32⟩
  | 39 => ⟨S1x64, .f32⟩
  | 40 => ⟨S64, .f32⟩
  | 41 => ⟨S1x64, .f32⟩
  | 42 => ⟨S1x64, .f32⟩
  | 43 => ⟨S1x64, .f32⟩
  | 44 => ⟨S1x64, .f32⟩
  | 45 => ⟨S1x64, .f32⟩
  | 46 => ⟨S1x64, .f32⟩
  | 47 => ⟨S_, .f32⟩
  | 48 => ⟨S1x64, .f32⟩
  | 49 => ⟨S1x64, .f32⟩
  | 50 => ⟨S_, .f32⟩
  | 51 => ⟨S1x64, .f32⟩
  | 52 => ⟨S1x64, .f32⟩
  | 53 => ⟨S1x64, .f32⟩
  | 54 => ⟨S1x64, .f32⟩
  | 55 => ⟨S_, .f32⟩
  | 56 => ⟨S1x64, .f32⟩
  | 57 => ⟨S1x64, .f32⟩
  | 58 => ⟨S100000x64, .f32⟩
  | _ => ⟨S1600000, .i32⟩

abbrev hbmTy (i : Nat) : BufTy := match i / 128 with
  | 0 => hbmTy0_0 i
  | 1 => hbmTy0_1 i
  | _ => ⟨S1600000, .i32⟩

abbrev bufTy : (tb : Table) → Fin (tcTables nBuf tb) → BufTy
  | .hbm, ⟨i, _⟩ => hbmTy i
  | .local _ .vmem, ⟨0, _⟩ => ⟨S10000x1, .f32⟩
  | .local _ .vmem, ⟨1, _⟩ => ⟨S10000x1, .f32⟩
  | .local _ .vmem, ⟨2, _⟩ => ⟨S1x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S10000x1, .f32⟩
  | .local _ .vmem, ⟨9, _⟩ => ⟨S10000x1, .f32⟩
  | .local _ .vmem, ⟨10, _⟩ => ⟨S1x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S1x64, .f32⟩
  | .local _ .vmem, ⟨32, _⟩ => ⟨S64x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S64x64, .f32⟩
  | .local _ .vmem, ⟨43, _⟩ => ⟨S1x64, .f32⟩
  | .local _ .vmem, ⟨44, _⟩ => ⟨S64x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S10000x64, .f32⟩
  | .local _ .vmem, ⟨49, _⟩ => ⟨S10000x64, .f32⟩
  | .local _ .vmem, ⟨50, _⟩ => ⟨S64x64, .f32⟩
  | .local _ .vmem, ⟨51, _⟩ => ⟨S1x64, .f32⟩
  | .local _ .vmem, ⟨52, _⟩ => ⟨S64x64, .f32⟩
  | .local _ .vmem, ⟨53, _⟩ => ⟨S1x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S10000x64, .f32⟩
  | .local _ .vmem, ⟨59, _⟩ => ⟨S10000x64, .f32⟩
  | .local _ .vmem, ⟨60, _⟩ => ⟨S10000x64, .f32⟩
  | .local _ .vmem, ⟨61, _⟩ => ⟨S10000x64, .f32⟩
  | .local _ .vmem, ⟨62, _⟩ => ⟨S64x64, .f32⟩
  | .local _ .vmem, ⟨63, _⟩ => ⟨S1x64, .f32⟩
  | .local _ .vmem, ⟨64, _⟩ => ⟨S64x64, .f32⟩
  | .local _ .vmem, ⟨65, _⟩ => ⟨S1x64, .f32⟩
  | .local _ .vmem, ⟨66, _⟩ => ⟨S1x64, .f32⟩
  | .local _ .vmem, ⟨67, _⟩ => ⟨S1x64, .f32⟩
  | .local _ .vmem, ⟨68, _⟩ => ⟨S10000x64, .f32⟩
  | .local _ .vmem, ⟨69, _⟩ => ⟨S10000x64, .f32⟩
  | .local _ .vmem, ⟨70, _⟩ => ⟨S64x64, .f32⟩
  | .local _ .vmem, ⟨71, _⟩ => ⟨S1x64, .f32⟩
  | .local _ .vmem, ⟨72, _⟩ => ⟨S64x64, .f32⟩
  | .local _ .vmem, ⟨73, _⟩ => ⟨S1x64, .f32⟩
  | .local _ .vmem, ⟨74, _⟩ => ⟨S1x64, .f32⟩
  | .local _ .vmem, ⟨75, _⟩ => ⟨S1x64, .f32⟩
  | .local _ .vmem, ⟨76, _⟩ => ⟨S1x64, .f32⟩
  | .local _ .vmem, ⟨77, _⟩ => ⟨S1x64, .f32⟩
  | .local _ .vmem, ⟨78, _⟩ => ⟨S10000x64, .f32⟩
  | .local _ .vmem, ⟨79, _⟩ => ⟨S10000x64, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24_0 : Ref sig .tc := ⟨.hbm, 41, rfl⟩
abbrev main_v24_1 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61_0 : Ref sig .tc := ⟨.hbm, 85, rfl⟩
abbrev main_v61_1 : Ref sig .tc := ⟨.hbm, 86, rfl⟩
abbrev main_cst_9 : Ref sig .tc := ⟨.hbm, 87, rfl⟩
abbrev main_v62 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_12 : Ref sig .tc := ⟨.hbm, 99, rfl⟩
abbrev main_v71 : Ref sig .tc := ⟨.hbm, 100, rfl⟩
abbrev main_v72 : Ref sig .tc := ⟨.hbm, 101, rfl⟩
abbrev main_c_13 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98_0 : Ref sig .tc := ⟨.hbm, 129, rfl⟩
abbrev main_v98_1 : Ref sig .tc := ⟨.hbm, 130, rfl⟩
abbrev main_cst_15 : Ref sig .tc := ⟨.hbm, 131, rfl⟩
abbrev main_v99 : Ref sig .tc := ⟨.hbm, 132, rfl⟩
abbrev main_v100 : Ref sig .tc := ⟨.hbm, 133, rfl⟩
abbrev main_cst_16 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_17 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_18 : Ref sig .tc := ⟨.hbm, 143, rfl⟩
abbrev main_v108 : Ref sig .tc := ⟨.hbm, 144, rfl⟩
abbrev main_v109 : Ref sig .tc := ⟨.hbm, 145, rfl⟩
abbrev main_c_19 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_20 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135_0 : Ref sig .tc := ⟨.hbm, 173, rfl⟩
abbrev main_v135_1 : Ref sig .tc := ⟨.hbm, 174, rfl⟩
abbrev main_cst_21 : Ref sig .tc := ⟨.hbm, 175, rfl⟩
abbrev main_v136 : Ref sig .tc := ⟨.hbm, 176, rfl⟩
abbrev main_v137 : Ref sig .tc := ⟨.hbm, 177, rfl⟩
abbrev main_cst_22 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_cst_23 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg9_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg6_0 : Ref sig .tc := ⟨.vmem, 55, rfl⟩
abbrev cc5_stg7_0 : Ref sig .tc := ⟨.vmem, 56, rfl⟩
abbrev cc5_stg8_0 : Ref sig .tc := ⟨.vmem, 57, rfl⟩
abbrev cc5_stg9_0 : Ref sig .tc := ⟨.vmem, 58, rfl⟩
abbrev cc5_stg9_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg6_0 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg2_0 : Ref sig .tc := ⟨.vmem, 71, rfl⟩
abbrev cc7_stg3_0 : Ref sig .tc := ⟨.vmem, 72, rfl⟩
abbrev cc7_stg4_0 : Ref sig .tc := ⟨.vmem, 73, rfl⟩
abbrev cc7_stg5_0 : Ref sig .tc := ⟨.vmem, 74, rfl⟩
abbrev cc7_stg6_0 : Ref sig .tc := ⟨.vmem, 75, rfl⟩
abbrev cc7_stg7_0 : Ref sig .tc := ⟨.vmem, 76, rfl⟩
abbrev cc7_stg8_0 : Ref sig .tc := ⟨.vmem, 77, rfl⟩
abbrev cc7_stg9_0 : Ref sig .tc := ⟨.vmem, 78, rfl⟩
abbrev cc7_stg9_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem9_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem6_0 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem6_0 : DmaSem sig := 55
abbrev cc5_sem7_0 : DmaSem sig := 56
abbrev cc5_sem8_0 : DmaSem sig := 57
abbrev cc5_sem9_0 : DmaSem sig := 58
abbrev cc5_sem9_1 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem3_0 : DmaSem sig := 64
abbrev cc6_sem4_0 : DmaSem sig := 65
abbrev cc6_sem5_0 : DmaSem sig := 66
abbrev cc6_sem6_0 : DmaSem sig := 67
abbrev cc7_sem0_0 : DmaSem sig := 68
abbrev cc7_sem0_1 : DmaSem sig := 69
abbrev cc7_sem1_0 : DmaSem sig := 70
abbrev cc7_sem2_0 : DmaSem sig := 71
abbrev cc7_sem3_0 : DmaSem sig := 72
abbrev cc7_sem4_0 : DmaSem sig := 73
abbrev cc7_sem5_0 : DmaSem sig := 74
abbrev cc7_sem6_0 : DmaSem sig := 75
abbrev cc7_sem7_0 : DmaSem sig := 76
abbrev cc7_sem8_0 : DmaSem sig := 77
abbrev cc7_sem9_0 : DmaSem sig := 78
abbrev cc7_sem9_1 : DmaSem sig := 79

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S10000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S10000x64 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x64 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S10000x64 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  slices_S4x64_S1x64_0_0 : S4x64.Slices ![0, 0] S1x64
  shapeCasts_S1x64_S64 : S1x64.ShapeCasts S64
  shapeCasts_S64_S1x64 : S64.ShapeCasts S1x64
  inb_S1x64_S1x64_0_0 : ∀ a, (![0, 0] : Fin 2 → Nat) a + S1x64.size a ≤ S1x64.size a
  h_S1x64 : 0 < S1x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  reduces_S10000x64_S64 : S10000x64.Reduces [0] S64
  bcast_S_S1x64 : S_.BroadcastsInDim S1x64 (![] : Fin 0 → Fin S1x64.rank)
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  slices_S4x64_S1x64_1_0 : S4x64.Slices ![1, 0] S1x64
  shapeCasts_S10000x64_S10000x64 : S10000x64.ShapeCasts S10000x64
  shapeCasts_S64x64_S64x64 : S64x64.ShapeCasts S64x64
  slices_S3x64x64_S1x64x64_1_0_0 : S3x64x64.Slices ![1, 0, 0] S1x64x64
  slices_S3x64_S1x64_1_0 : S3x64.Slices ![1, 0] S1x64
  slices_S4x64_S1x64_2_0 : S4x64.Slices ![2, 0] S1x64
  slices_S3x64x64_S1x64x64_2_0_0 : S3x64x64.Slices ![2, 0, 0] S1x64x64
  slices_S3x64_S1x64_2_0 : S3x64.Slices ![2, 0] S1x64
  slices_S4x64_S1x64_3_0 : S4x64.Slices ![3, 0] S1x64
  scatter_S100000_S1600000x1_S1600000_n_0_0_1_wf : ScatterDims.WF S100000 S1600000x1 S1600000 [] [0] [0] 1
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x1.size a ≤ S100000x1.size a
  hwx1_0 : ∀ i : grid1.Coords, EltTy.bits .f32 = 32 ∨ (Rect.block (s := S100000x1) S10000x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x64.size a ≤ S100000x64.size a
  hwx1_9 : ∀ i : grid1.Coords, EltTy.bits .f32 = 32 ∨ (Rect.block (s := S100000x64) S10000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S10000x64.size a ≤ S100000x64.size a
  hwx3_9 : ∀ i : grid3.Coords, EltTy.bits .f32 = 32 ∨ (Rect.block (s := S100000x64) S10000x64.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x64.size a ≤ S1x64.size a
  hwx5_7 : ∀ i : grid5.Coords, EltTy.bits .f32 = 32 ∨ (Rect.block (s := S1x64) S1x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x64.size a ≤ S1x64.size a
  hwx5_8 : ∀ i : grid5.Coords, EltTy.bits .f32 = 32 ∨ (Rect.block (s := S1x64) S1x64.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S10000x64.size a ≤ S100000x64.size a
  hwx5_9 : ∀ i : grid5.Coords, EltTy.bits .f32 = 32 ∨ (Rect.block (s := S100000x64) S10000x64.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x64.size a ≤ S1x64.size a
  hwx7_7 : ∀ i : grid7.Coords, EltTy.bits .f32 = 32 ∨ (Rect.block (s := S1x64) S1x64.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x64.size a ≤ S1x64.size a
  hwx7_8 : ∀ i : grid7.Coords, EltTy.bits .f32 = 32 ∨ (Rect.block (s := S1x64) S1x64.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S10000x64.size a ≤ S100000x64.size a
  hwx7_9 : ∀ i : grid7.Coords, EltTy.bits .f32 = 32 ∨ (Rect.block (s := S100000x64) S10000x64.size (cc7_transform_9 i) (hinb7_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v15) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24_0) S1x64.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_1) S1x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v15) S10000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S10000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61_0) S1x64.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61_1) S1x64.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v44) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v69) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v59) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v60) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v70) S10000x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v81) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v94) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v87) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v95) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v98_0) S1x64.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v98_1) S1x64.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v81) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v94) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v87) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v95) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v100) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v106) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v96) S1x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v97) S1x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v107) S10000x64.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v118) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v120) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v131) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v124) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v132) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v135_0) S1x64.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v135_1) S1x64.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v118) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v120) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v131) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v124) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v132) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v137) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v143) S1x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v133) S1x64.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v134) S1x64.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v144) S10000x64.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

class Facts : Prop extends Facts₀ where

variable [Facts]
-- ==== ReferenceIdeal.lean ====
abbrev S1600000 : Shape := ⟨1, ![1600000]⟩
abbrev S1x64 : Shape := ⟨2, ![1, 64]⟩
abbrev S64 : Shape := ⟨1, ![64]⟩
abbrev S64x64 : Shape := ⟨2, ![64, 64]⟩
abbrev S3x64x64 : Shape := ⟨3, ![3, 64, 64]⟩
abbrev S3x64 : Shape := ⟨2, ![3, 64]⟩
abbrev S4x64 : Shape := ⟨2, ![4, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64x64 : Shape := ⟨3, ![1, 64, 64]⟩

abbrev nBuf : Space → Nat
  | .hbm => 347
  | .vmem => 0
  | .smem => 0
  | _ => 0

abbrev hbmTy0_0 (i : Nat) : BufTy := match i % 128 with
  | 0 => ⟨S1600000, .i32⟩
  | 1 => ⟨S1600000, .i32⟩
  | 2 => ⟨S1x64, .f32⟩
  | 3 => ⟨S64, .f32⟩
  | 4 => ⟨S64x64, .f32⟩
  | 5 => ⟨S64, .f32⟩
  | 6 => ⟨S3x64x64, .f32⟩
  | 7 => ⟨S3x64, .f32⟩
  | 8 => ⟨S3x64x64, .f32⟩
  | 9 => ⟨S3x64, .f32⟩
  | 10 => ⟨S4x64, .f32⟩
  | 11 => ⟨S4x64, .f32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S100000x1, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x1, .f32⟩
  | 28 => ⟨S_, .f32⟩
  | 29 => ⟨S100000x1, .f32⟩
  | 30 => ⟨S1600000x1, .i32⟩
  | 31 => ⟨S100000x1, .f32⟩
  | 32 => ⟨S100000x1, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S1x64, .f32⟩
  | 45 => ⟨S64, .f32⟩
  | 46 => ⟨S1x64, .f32⟩
  | 47 => ⟨S64, .f32⟩
  | 48 => ⟨S_, .f32⟩
  | 49 => ⟨S64, .f32⟩
  | 50 => ⟨S_, .f32⟩
  | 51 => ⟨S64, .f32⟩
  | 52 => ⟨S64, .f32⟩
  | 53 => ⟨S_, .i32⟩
  | 54 => ⟨S_, .f32⟩
  | 55 => ⟨S64, .f32⟩
  | 56 => ⟨S1x64, .f32⟩
  | 57 => ⟨S_, .f32⟩
  | 58 => ⟨S1x64, .f32⟩
  | 59 => ⟨S1x64, .f32⟩
  | 60 => ⟨S100000x64, .f32⟩
  | 61 => ⟨S100000x64, .f32⟩
  | 62 => ⟨S100000x64, .f32⟩
  | 63 => ⟨S_, .f32⟩
  | 64 => ⟨S_, .f32⟩
  | 65 => ⟨S_, .f32⟩
  | 66 => ⟨S_, .f32⟩
  | 67 => ⟨S64, .f32⟩
  | 68 => ⟨S64, .f32⟩
  | 69 => ⟨S64, .f32⟩
  | 70 => ⟨S_, .f32⟩
  | 71 => ⟨S_, .i1⟩
  | 72 => ⟨S_, .f32⟩
  | 73 => ⟨S_, .f32⟩
  | 74 => ⟨S64, .f32⟩
  | 75 => ⟨S64, .f32⟩
  | 76 => ⟨S1x64, .f32⟩
  | 77 => ⟨S100000x64, .f32⟩
  | 78 => ⟨S100000x64, .f32⟩
  | 79 => ⟨S_, .f32⟩
  | 80 => ⟨S64, .f32⟩
  | 81 => ⟨S64, .f32⟩
  | 82 => ⟨S64, .f32⟩
  | 83 => ⟨S1x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S1x64, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S100000x64, .f32⟩
  | 109 => ⟨S1x64x64, .f32⟩
  | 110 => ⟨S64x64, .f32⟩
  | 111 => ⟨S1x64, .f32⟩
  | 112 => ⟨S64, .f32⟩
  | 113 => ⟨S1x64x64, .f32⟩
  | 114 => ⟨S64x64, .f32⟩
  | 115 => ⟨S1x64, .f32⟩
  | 116 => ⟨S64, .f32⟩
  | 117 => ⟨S100000x64, .f32⟩
  | 118 => ⟨S1x64, .f32⟩
  | 119 => ⟨S100000x64, .f32⟩
  | 120 => ⟨S100000x64, .f32⟩
  | 121 => ⟨S_, .f32⟩
  | 122 => ⟨S100000x64, .f32⟩
  | 123 => ⟨S100000x64, .f32⟩
  | 124 => ⟨S100000x64, .f32⟩
  | 125 => ⟨S1x64, .f32⟩
  | 126 => ⟨S100000x64, .f32⟩
  | 127 => ⟨S100000x64, .f32⟩
  | _ => ⟨S1600000, .i32⟩

abbrev hbmTy0_1 (i : Nat) : BufTy := match i % 128 with
  | 0 => ⟨S1x64, .f32⟩
  | 1 => ⟨S64, .f32⟩
  | 2 => ⟨S1x64, .f32⟩
  | 3 => ⟨S64, .f32⟩
  | 4 => ⟨S_, .f32⟩
  | 5 => ⟨S64, .f32⟩
  | 6 => ⟨S_, .f32⟩
  | 7 => ⟨S64, .f32⟩
  | 8 => ⟨S64, .f32⟩
  | 9 => ⟨S_, .i32⟩
  | 10 => ⟨S_, .f32⟩
  | 11 => ⟨S64, .f32⟩
  | 12 => ⟨S1x64, .f32⟩
  | 13 => ⟨S_, .f32⟩
  | 14 => ⟨S1x64, .f32⟩
  | 15 => ⟨S1x64, .f32⟩
  | 16 => ⟨S100000x64, .f32⟩
  | 17 => ⟨S100000x64, .f32⟩
  | 18 => ⟨S100000x64, .f32⟩
  | 19 => ⟨S_, .f32⟩
  | 20 => ⟨S_, .f32⟩
  | 21 => ⟨S_, .f32⟩
  | 22 => ⟨S_, .f32⟩
  | 23 => ⟨S64, .f32⟩
  | 24 => ⟨S64, .f32⟩
  | 25 => ⟨S64, .f32⟩
  | 26 => ⟨S_, .f32⟩
  | 27 => ⟨S_, .i1⟩
  | 28 => ⟨S_, .f32⟩
  | 29 => ⟨S_, .f32⟩
  | 30 => ⟨S64, .f32⟩
  | 31 => ⟨S64, .f32⟩
  | 32 => ⟨S1x64, .f32⟩
  | 33 => ⟨S100000x64, .f32⟩
  | 34 => ⟨S100000x64, .f32⟩
  | 35 => ⟨S_, .f32⟩
  | 36 => ⟨S64, .f32⟩
  | 37 => ⟨S64, .f32⟩
  | 38 => ⟨S64, .f32⟩
  | 39 => ⟨S1x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x64, .f32⟩
  | 60 => ⟨S_, .f32⟩
  | 61 => ⟨S100000x64, .f32⟩
  | 62 => ⟨S1600000x1, .i32⟩
  | 63 => ⟨S100000x64, .f32⟩
  | 64 => ⟨S100000x64, .f32⟩
  | 65 => ⟨S1x64x64, .f32⟩
  | 66 => ⟨S64x64, .f32⟩
  | 67 => ⟨S1x64, .f32⟩
  | 68 => ⟨S64, .f32⟩
  | 69 => ⟨S1x64x64, .f32⟩
  | 70 => ⟨S64x64, .f32⟩
  | 71 => ⟨S1x64, .f32⟩
  | 72 => ⟨S64, .f32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S100000x64, .f32⟩
  | 81 => ⟨S1x64, .f32⟩
  | 82 => ⟨S100000x64, .f32⟩
  | 83 => ⟨S100000x64, .f32⟩
  | 84 => ⟨S1x64, .f32⟩
  | 85 => ⟨S64, .f32⟩
  | 86 => ⟨S1x64, .f32⟩
  | 87 => ⟨S64, .f32⟩
  | 88 => ⟨S_, .f32⟩
  | 89 => ⟨S64, .f32⟩
  | 90 => ⟨S_, .f32⟩
  | 91 => ⟨S64, .f32⟩
  | 92 => ⟨S64, .f32⟩
  | 93 => ⟨S_, .i32⟩
  | 94 => ⟨S_, .f32⟩
  | 95 => ⟨S64, .f32⟩
  | 96 => ⟨S1x64, .f32⟩
  | 97 => ⟨S_, .f32⟩
  | 98 => ⟨S1x64, .f32⟩
  | 99 => ⟨S1x64, .f32⟩
  | 100 => ⟨S100000x64, .f32⟩
  | 101 => ⟨S100000x64, .f32⟩
  | 102 => ⟨S100000x64, .f32⟩
  | 103 => ⟨S_, .f32⟩
  | 104 => ⟨S_, .f32⟩
  | 105 => ⟨S_, .f32⟩
  | 106 => ⟨S_, .f32⟩
  | 107 => ⟨S64, .f32⟩
  | 108 => ⟨S64, .f32⟩
  | 109 => ⟨S64, .f32⟩
  | 110 => ⟨S_, .f32⟩
  | 111 => ⟨S_, .i1⟩
  | 112 => ⟨S_, .f32⟩
  | 113 => ⟨S_, .f32⟩
  | 114 => ⟨S64, .f32⟩
  | 115 => ⟨S64, .f32⟩
  | 116 => ⟨S1x64, .f32⟩
  | 117 => ⟨S100000x64, .f32⟩
  | 118 => ⟨S100000x64, .f32⟩
  | 119 => ⟨S_, .f32⟩
  | 120 => ⟨S64, .f32⟩
  | 121 => ⟨S64, .f32⟩
  | 122 => ⟨S64, .f32⟩
  | 123 => ⟨S1x64, .f32⟩
  | 124 => ⟨S100000x64, .f32⟩
  | 125 => ⟨S100000x64, .f32⟩
  | 126 => ⟨S1x64, .f32⟩
  | 127 => ⟨S100000x64, .f32⟩
  | _ => ⟨S1600000, .i32⟩

abbrev hbmTy0_2 (i : Nat) : BufTy := match i % 128 with
  | 0 => ⟨S100000x64, .f32⟩
  | 1 => ⟨S1x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x64, .f32⟩
  | 16 => ⟨S_, .f32⟩
  | 17 => ⟨S100000x64, .f32⟩
  | 18 => ⟨S1600000x1, .i32⟩
  | 19 => ⟨S100000x64, .f32⟩
  | 20 => ⟨S100000x64, .f32⟩
  | 21 => ⟨S1x64x64, .f32⟩
  | 22 => ⟨S64x64, .f32⟩
  | 23 => ⟨S1x64, .f32⟩
  | 24 => ⟨S64, .f32⟩
  | 25 => ⟨S1x64x64, .f32⟩
  | 26 => ⟨S64x64, .f32⟩
  | 27 => ⟨S1x64, .f32⟩
  | 28 => ⟨S64, .f32⟩
  | 29 => ⟨S100000x64, .f32⟩
  | 30 => ⟨S1x64, .f32⟩
  | 31 => ⟨S100000x64, .f32⟩
  | 32 => ⟨S100000x64, .f32⟩
  | 33 => ⟨S_, .f32⟩
  | 34 => ⟨S100000x64, .f32⟩
  | 35 => ⟨S100000x64, .f32⟩
  | 36 => ⟨S100000x64, .f32⟩
  | 37 => ⟨S1x64, .f32⟩
  | 38 => ⟨S100000x64, .f32⟩
  | 39 => ⟨S100000x64, .f32⟩
  | 40 => ⟨S1x64, .f32⟩
  | 41 => ⟨S64, .f32⟩
  | 42 => ⟨S1x64, .f32⟩
  | 43 => ⟨S64, .f32⟩
  | 44 => ⟨S_, .f32⟩
  | 45 => ⟨S64, .f32⟩
  | 46 => ⟨S_, .f32⟩
  | 47 => ⟨S64, .f32⟩
  | 48 => ⟨S64, .f32⟩
  | 49 => ⟨S_, .i32⟩
  | 50 => ⟨S_, .f32⟩
  | 51 => ⟨S64, .f32⟩
  | 52 => ⟨S1x64, .f32⟩
  | 53 => ⟨S_, .f32⟩
  | 54 => ⟨S1x64, .f32⟩
  | 55 => ⟨S1x64, .f32⟩
  | 56 => ⟨S100000x64, .f32⟩
  | 57 => ⟨S100000x64, .f32⟩
  | 58 => ⟨S100000x64, .f32⟩
  | 59 => ⟨S_, .f32⟩
  | 60 => ⟨S_, .f32⟩
  | 61 => ⟨S_, .f32⟩
  | 62 => ⟨S_, .f32⟩
  | 63 => ⟨S64, .f32⟩
  | 64 => ⟨S64, .f32⟩
  | 65 => ⟨S64, .f32⟩
  | 66 => ⟨S_, .f32⟩
  | 67 => ⟨S_, .i1⟩
  | 68 => ⟨S_, .f32⟩
  | 69 => ⟨S_, .f32⟩
  | 70 => ⟨S64, .f32⟩
  | 71 => ⟨S64, .f32⟩
  | 72 => ⟨S1x64, .f32⟩
  | 73 => ⟨S100000x64, .f32⟩
  | 74 => ⟨S100000x64, .f32⟩
  | 75 => ⟨S_, .f32⟩
  | 76 => ⟨S64, .f32⟩
  | 77 => ⟨S64, .f32⟩
  | 78 => ⟨S64, .f32⟩
  | 79 => ⟨S1x64, .f32⟩
  | 80 => ⟨S100000x64, .f32⟩
  | 81 => ⟨S100000x64, .f32⟩
  | 82 => ⟨S1x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S_, .f32⟩
  | 89 => ⟨S100000x64, .f32⟩
  | 90 => ⟨S100000x64, .f32⟩
  | _ => ⟨S1600000, .i32⟩

abbrev hbmTy (i : Nat) : BufTy := match i / 128 with
  | 0 => hbmTy0_0 i
  | 1 => hbmTy0_1 i
  | 2 => hbmTy0_2 i
  | _ => ⟨S1600000, .i32⟩

abbrev bufTy : (tb : Table) → Fin (tcTables nBuf tb) → BufTy
  | .hbm, ⟨i, _⟩ => hbmTy i
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_cst : Ref sig .tc := ⟨.hbm, 37, rfl⟩
abbrev main_call0_v0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_call1_cst : Ref sig .tc := ⟨.hbm, 54, rfl⟩
abbrev main_call1_v0 : Ref sig .tc := ⟨.hbm, 55, rfl⟩
abbrev main_call1_v1 : Ref sig .tc := ⟨.hbm, 56, rfl⟩
abbrev main_call1_cst_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_cst_1 : Ref sig .tc := ⟨.hbm, 64, rfl⟩
abbrev main_call1_v8 : Ref sig .tc := ⟨.hbm, 65, rfl⟩
abbrev main_call1_cst_2 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_cst_3 : Ref sig .tc := ⟨.hbm, 70, rfl⟩
abbrev main_call1_v12 : Ref sig .tc := ⟨.hbm, 71, rfl⟩
abbrev main_call1_cst_4 : Ref sig .tc := ⟨.hbm, 72, rfl⟩
abbrev main_call1_call0_v0 : Ref sig .tc := ⟨.hbm, 73, rfl⟩
abbrev main_call1_call0_v1 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_6 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_call2_cst : Ref sig .tc := ⟨.hbm, 92, rfl⟩
abbrev main_call2_v0 : Ref sig .tc := ⟨.hbm, 93, rfl⟩
abbrev main_v48 : Ref sig .tc := ⟨.hbm, 94, rfl⟩
abbrev main_c_7 : Ref sig .tc := ⟨.hbm, 95, rfl⟩
abbrev main_v49 : Ref sig .tc := ⟨.hbm, 96, rfl⟩
abbrev main_v50 : Ref sig .tc := ⟨.hbm, 97, rfl⟩
abbrev main_c_8 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_9 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_call3_cst : Ref sig .tc := ⟨.hbm, 121, rfl⟩
abbrev main_call3_v0 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_10 : Ref sig .tc := ⟨.hbm, 132, rfl⟩
abbrev main_v81 : Ref sig .tc := ⟨.hbm, 133, rfl⟩
abbrev main_cst_11 : Ref sig .tc := ⟨.hbm, 134, rfl⟩
abbrev main_v82 : Ref sig .tc := ⟨.hbm, 135, rfl⟩
abbrev main_v83 : Ref sig .tc := ⟨.hbm, 136, rfl⟩
abbrev main_c_12 : Ref sig .tc := ⟨.hbm, 137, rfl⟩
abbrev main_call4_cst : Ref sig .tc := ⟨.hbm, 138, rfl⟩
abbrev main_call4_v0 : Ref sig .tc := ⟨.hbm, 139, rfl⟩
abbrev main_call4_v1 : Ref sig .tc := ⟨.hbm, 140, rfl⟩
abbrev main_call4_cst_0 : Ref sig .tc := ⟨.hbm, 141, rfl⟩
abbrev main_call4_v2 : Ref sig .tc := ⟨.hbm, 142, rfl⟩
abbrev main_call4_v3 : Ref sig .tc := ⟨.hbm, 143, rfl⟩
abbrev main_call4_v4 : Ref sig .tc := ⟨.hbm, 144, rfl⟩
abbrev main_call4_v5 : Ref sig .tc := ⟨.hbm, 145, rfl⟩
abbrev main_call4_v6 : Ref sig .tc := ⟨.hbm, 146, rfl⟩
abbrev main_call4_v7 : Ref sig .tc := ⟨.hbm, 147, rfl⟩
abbrev main_call4_cst_1 : Ref sig .tc := ⟨.hbm, 148, rfl⟩
abbrev main_call4_v8 : Ref sig .tc := ⟨.hbm, 149, rfl⟩
abbrev main_call4_cst_2 : Ref sig .tc := ⟨.hbm, 150, rfl⟩
abbrev main_call4_v9 : Ref sig .tc := ⟨.hbm, 151, rfl⟩
abbrev main_call4_v10 : Ref sig .tc := ⟨.hbm, 152, rfl⟩
abbrev main_call4_v11 : Ref sig .tc := ⟨.hbm, 153, rfl⟩
abbrev main_call4_cst_3 : Ref sig .tc := ⟨.hbm, 154, rfl⟩
abbrev main_call4_v12 : Ref sig .tc := ⟨.hbm, 155, rfl⟩
abbrev main_call4_cst_4 : Ref sig .tc := ⟨.hbm, 156, rfl⟩
abbrev main_call4_call0_v0 : Ref sig .tc := ⟨.hbm, 157, rfl⟩
abbrev main_call4_call0_v1 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_cst_13 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_call5_cst : Ref sig .tc := ⟨.hbm, 176, rfl⟩
abbrev main_call5_v0 : Ref sig .tc := ⟨.hbm, 177, rfl⟩
abbrev main_v100 : Ref sig .tc := ⟨.hbm, 178, rfl⟩
abbrev main_c_14 : Ref sig .tc := ⟨.hbm, 179, rfl⟩
abbrev main_v101 : Ref sig .tc := ⟨.hbm, 180, rfl⟩
abbrev main_v102 : Ref sig .tc := ⟨.hbm, 181, rfl⟩
abbrev main_c_15 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_cst_16 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_call6_cst : Ref sig .tc := ⟨.hbm, 205, rfl⟩
abbrev main_call6_v0 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_cst_17 : Ref sig .tc := ⟨.hbm, 216, rfl⟩
abbrev main_v133 : Ref sig .tc := ⟨.hbm, 217, rfl⟩
abbrev main_cst_18 : Ref sig .tc := ⟨.hbm, 218, rfl⟩
abbrev main_v134 : Ref sig .tc := ⟨.hbm, 219, rfl⟩
abbrev main_v135 : Ref sig .tc := ⟨.hbm, 220, rfl⟩
abbrev main_c_19 : Ref sig .tc := ⟨.hbm, 221, rfl⟩
abbrev main_call7_cst : Ref sig .tc := ⟨.hbm, 222, rfl⟩
abbrev main_call7_v0 : Ref sig .tc := ⟨.hbm, 223, rfl⟩
abbrev main_call7_v1 : Ref sig .tc := ⟨.hbm, 224, rfl⟩
abbrev main_call7_cst_0 : Ref sig .tc := ⟨.hbm, 225, rfl⟩
abbrev main_call7_v2 : Ref sig .tc := ⟨.hbm, 226, rfl⟩
abbrev main_call7_v3 : Ref sig .tc := ⟨.hbm, 227, rfl⟩
abbrev main_call7_v4 : Ref sig .tc := ⟨.hbm, 228, rfl⟩
abbrev main_call7_v5 : Ref sig .tc := ⟨.hbm, 229, rfl⟩
abbrev main_call7_v6 : Ref sig .tc := ⟨.hbm, 230, rfl⟩
abbrev main_call7_v7 : Ref sig .tc := ⟨.hbm, 231, rfl⟩
abbrev main_call7_cst_1 : Ref sig .tc := ⟨.hbm, 232, rfl⟩
abbrev main_call7_v8 : Ref sig .tc := ⟨.hbm, 233, rfl⟩
abbrev main_call7_cst_2 : Ref sig .tc := ⟨.hbm, 234, rfl⟩
abbrev main_call7_v9 : Ref sig .tc := ⟨.hbm, 235, rfl⟩
abbrev main_call7_v10 : Ref sig .tc := ⟨.hbm, 236, rfl⟩
abbrev main_call7_v11 : Ref sig .tc := ⟨.hbm, 237, rfl⟩
abbrev main_call7_cst_3 : Ref sig .tc := ⟨.hbm, 238, rfl⟩
abbrev main_call7_v12 : Ref sig .tc := ⟨.hbm, 239, rfl⟩
abbrev main_call7_cst_4 : Ref sig .tc := ⟨.hbm, 240, rfl⟩
abbrev main_call7_call0_v0 : Ref sig .tc := ⟨.hbm, 241, rfl⟩
abbrev main_call7_call0_v1 : Ref sig .tc := ⟨.hbm, 242, rfl⟩
abbrev main_v136 : Ref sig .tc := ⟨.hbm, 243, rfl⟩
abbrev main_v137 : Ref sig .tc := ⟨.hbm, 244, rfl⟩
abbrev main_v138 : Ref sig .tc := ⟨.hbm, 245, rfl⟩
abbrev main_v139 : Ref sig .tc := ⟨.hbm, 246, rfl⟩
abbrev main_cst_20 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_v143 : Ref sig .tc := ⟨.hbm, 251, rfl⟩
abbrev main_v144 : Ref sig .tc := ⟨.hbm, 252, rfl⟩
abbrev main_v145 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_v151 : Ref sig .tc := ⟨.hbm, 259, rfl⟩
abbrev main_call8_cst : Ref sig .tc := ⟨.hbm, 260, rfl⟩
abbrev main_call8_v0 : Ref sig .tc := ⟨.hbm, 261, rfl⟩
abbrev main_v152 : Ref sig .tc := ⟨.hbm, 262, rfl⟩
abbrev main_c_21 : Ref sig .tc := ⟨.hbm, 263, rfl⟩
abbrev main_v153 : Ref sig .tc := ⟨.hbm, 264, rfl⟩
abbrev main_v154 : Ref sig .tc := ⟨.hbm, 265, rfl⟩
abbrev main_c_22 : Ref sig .tc := ⟨.hbm, 266, rfl⟩
abbrev main_v155 : Ref sig .tc := ⟨.hbm, 267, rfl⟩
abbrev main_v156 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_cst_23 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_v163 : Ref sig .tc := ⟨.hbm, 276, rfl⟩
abbrev main_v164 : Ref sig .tc := ⟨.hbm, 277, rfl⟩
abbrev main_v165 : Ref sig .tc := ⟨.hbm, 278, rfl⟩
abbrev main_v166 : Ref sig .tc := ⟨.hbm, 279, rfl⟩
abbrev main_v167 : Ref sig .tc := ⟨.hbm, 280, rfl⟩
abbrev main_v168 : Ref sig .tc := ⟨.hbm, 281, rfl⟩
abbrev main_v169 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_v173 : Ref sig .tc := ⟨.hbm, 286, rfl⟩
abbrev main_v174 : Ref sig .tc := ⟨.hbm, 287, rfl⟩
abbrev main_v175 : Ref sig .tc := ⟨.hbm, 288, rfl⟩
abbrev main_call9_cst : Ref sig .tc := ⟨.hbm, 289, rfl⟩
abbrev main_call9_v0 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_v179 : Ref sig .tc := ⟨.hbm, 294, rfl⟩
abbrev main_v180 : Ref sig .tc := ⟨.hbm, 295, rfl⟩
abbrev main_v181 : Ref sig .tc := ⟨.hbm, 296, rfl⟩
abbrev main_v182 : Ref sig .tc := ⟨.hbm, 297, rfl⟩
abbrev main_v183 : Ref sig .tc := ⟨.hbm, 298, rfl⟩
abbrev main_v184 : Ref sig .tc := ⟨.hbm, 299, rfl⟩
abbrev main_cst_24 : Ref sig .tc := ⟨.hbm, 300, rfl⟩
abbrev main_v185 : Ref sig .tc := ⟨.hbm, 301, rfl⟩
abbrev main_cst_25 : Ref sig .tc := ⟨.hbm, 302, rfl⟩
abbrev main_v186 : Ref sig .tc := ⟨.hbm, 303, rfl⟩
abbrev main_v187 : Ref sig .tc := ⟨.hbm, 304, rfl⟩
abbrev main_c_26 : Ref sig .tc := ⟨.hbm, 305, rfl⟩
abbrev main_call10_cst : Ref sig .tc := ⟨.hbm, 306, rfl⟩
abbrev main_call10_v0 : Ref sig .tc := ⟨.hbm, 307, rfl⟩
abbrev main_call10_v1 : Ref sig .tc := ⟨.hbm, 308, rfl⟩
abbrev main_call10_cst_0 : Ref sig .tc := ⟨.hbm, 309, rfl⟩
abbrev main_call10_v2 : Ref sig .tc := ⟨.hbm, 310, rfl⟩
abbrev main_call10_v3 : Ref sig .tc := ⟨.hbm, 311, rfl⟩
abbrev main_call10_v4 : Ref sig .tc := ⟨.hbm, 312, rfl⟩
abbrev main_call10_v5 : Ref sig .tc := ⟨.hbm, 313, rfl⟩
abbrev main_call10_v6 : Ref sig .tc := ⟨.hbm, 314, rfl⟩
abbrev main_call10_v7 : Ref sig .tc := ⟨.hbm, 315, rfl⟩
abbrev main_call10_cst_1 : Ref sig .tc := ⟨.hbm, 316, rfl⟩
abbrev main_call10_v8 : Ref sig .tc := ⟨.hbm, 317, rfl⟩
abbrev main_call10_cst_2 : Ref sig .tc := ⟨.hbm, 318, rfl⟩
abbrev main_call10_v9 : Ref sig .tc := ⟨.hbm, 319, rfl⟩
abbrev main_call10_v10 : Ref sig .tc := ⟨.hbm, 320, rfl⟩
abbrev main_call10_v11 : Ref sig .tc := ⟨.hbm, 321, rfl⟩
abbrev main_call10_cst_3 : Ref sig .tc := ⟨.hbm, 322, rfl⟩
abbrev main_call10_v12 : Ref sig .tc := ⟨.hbm, 323, rfl⟩
abbrev main_call10_cst_4 : Ref sig .tc := ⟨.hbm, 324, rfl⟩
abbrev main_call10_call0_v0 : Ref sig .tc := ⟨.hbm, 325, rfl⟩
abbrev main_call10_call0_v1 : Ref sig .tc := ⟨.hbm, 326, rfl⟩
abbrev main_v188 : Ref sig .tc := ⟨.hbm, 327, rfl⟩
abbrev main_v189 : Ref sig .tc := ⟨.hbm, 328, rfl⟩
abbrev main_v190 : Ref sig .tc := ⟨.hbm, 329, rfl⟩
abbrev main_v191 : Ref sig .tc := ⟨.hbm, 330, rfl⟩
abbrev main_cst_27 : Ref sig .tc := ⟨.hbm, 331, rfl⟩
abbrev main_v192 : Ref sig .tc := ⟨.hbm, 332, rfl⟩
abbrev main_v193 : Ref sig .tc := ⟨.hbm, 333, rfl⟩
abbrev main_v194 : Ref sig .tc := ⟨.hbm, 334, rfl⟩
abbrev main_v195 : Ref sig .tc := ⟨.hbm, 335, rfl⟩
abbrev main_v196 : Ref sig .tc := ⟨.hbm, 336, rfl⟩
abbrev main_v197 : Ref sig .tc := ⟨.hbm, 337, rfl⟩
abbrev main_v198 : Ref sig .tc := ⟨.hbm, 338, rfl⟩
abbrev main_v199 : Ref sig .tc := ⟨.hbm, 339, rfl⟩
abbrev main_v200 : Ref sig .tc := ⟨.hbm, 340, rfl⟩
abbrev main_v201 : Ref sig .tc := ⟨.hbm, 341, rfl⟩
abbrev main_v202 : Ref sig .tc := ⟨.hbm, 342, rfl⟩
abbrev main_v203 : Ref sig .tc := ⟨.hbm, 343, rfl⟩
abbrev main_call11_cst : Ref sig .tc := ⟨.hbm, 344, rfl⟩
abbrev main_call11_v0 : Ref sig .tc := ⟨.hbm, 345, rfl⟩
abbrev main_v204 : Ref sig .tc := ⟨.hbm, 346, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S4x64_S1x64_0_0 : S4x64.Slices ![0, 0] S1x64
  shapeCasts_S1x64_S64 : S1x64.ShapeCasts S64
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  slices_S4x64_S1x64_1_0 : S4x64.Slices ![1, 0] S1x64
  slices_S3x64x64_S1x64x64_1_0_0 : S3x64x64.Slices ![1, 0, 0] S1x64x64
  slices_S3x64_S1x64_1_0 : S3x64.Slices ![1, 0] S1x64
  slices_S4x64_S1x64_2_0 : S4x64.Slices ![2, 0] S1x64
  slices_S3x64x64_S1x64x64_2_0_0 : S3x64x64.Slices ![2, 0, 0] S1x64x64
  slices_S3x64_S1x64_2_0 : S3x64.Slices ![2, 0] S1x64
  slices_S4x64_S1x64_3_0 : S4x64.Slices ![3, 0] S1x64
  scatter_S100000_S1600000x1_S1600000_n_0_0_1_wf : ScatterDims.WF S100000 S1600000x1 S1600000 [] [0] [0] 1
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  dot_S100000x1_S1x64_S100000x64_1_0_0_1_n_n_wf : DotDims.WF S100000x1 S1x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
import Idealize.ShloMosaic.PureOps.Ideal
import Mathlib.Algebra.BigOperators.Group.Finset.Basic

noncomputable section

namespace Cert.Gin

open Idealize.ShloMosaic
open scoped BigOperators

def cnt : EReal := ((100000 : ℝ) : EReal)

-- The normalisation's epsilon: the single-precision value nearest 1e-5.
def eps : EReal := Ideal.ofBits .f32 0x3727C5AC#32

def mlp0 (x : Fin 100000 → EReal) (w1 b1 : Fin 64 → EReal) (w2 : Fin 64 → Fin 64 → EReal) (b2 : Fin 64 → EReal) :
    Fin 100000 → Fin 64 → EReal :=
  fun i j => (∑ k : Fin 64, max (x i * w1 k + b1 k) 0 * w2 k j) + b2 j

-- Two affine maps with a clamp at zero between them, row by row.
def mlp (x : Fin 100000 → Fin 64 → EReal) (w1 : Fin 64 → Fin 64 → EReal) (b1 : Fin 64 → EReal)
    (w2 : Fin 64 → Fin 64 → EReal) (b2 : Fin 64 → EReal) : Fin 100000 → Fin 64 → EReal :=
  fun i j => (∑ k : Fin 64, max ((∑ l : Fin 64, x i l * w1 l k) + b1 k) 0 * w2 k j) + b2 j

def colSum (y : Fin 100000 → Fin 64 → EReal) (j : Fin 64) : EReal := ∑ i : Fin 100000, y i j
def colSumSq (y : Fin 100000 → Fin 64 → EReal) (j : Fin 64) : EReal := ∑ i : Fin 100000, y i j * y i j

def meanOf (y : Fin 100000 → Fin 64 → EReal) (j : Fin 64) : EReal := Ideal.div (colSum y j) cnt

-- Variance as the mean of squares minus the squared mean, clamped at zero.
def varK (y : Fin 100000 → Fin 64 → EReal) (j : Fin 64) : EReal :=
  max (Ideal.div (colSumSq y j) cnt - meanOf y j * meanOf y j) 0

-- Variance as the mean of squared deviations from the mean.
def varR (y : Fin 100000 → Fin 64 → EReal) (j : Fin 64) : EReal :=
  Ideal.div (∑ i : Fin 100000, (y i j - meanOf y j) * (y i j - meanOf y j)) cnt

def applyK (y : Fin 100000 → Fin 64 → EReal) (mean var g b : Fin 64 → EReal) : Fin 100000 → Fin 64 → EReal :=
  fun i j => max ((((y i j - mean j) * Ideal.rsqrt (max (var j) 0 + eps)) * g j) + b j) 0

def normK (y : Fin 100000 → Fin 64 → EReal) (g b : Fin 64 → EReal) : Fin 100000 → Fin 64 → EReal :=
  applyK y (meanOf y) (varK y) g b

def normR (y : Fin 100000 → Fin 64 → EReal) (g b : Fin 64 → EReal) : Fin 100000 → Fin 64 → EReal :=
  fun i j => max ((((y i j - meanOf y j) * Ideal.rsqrt (varR y j + eps)) * g j) + b j) 0

def Real2 {n m : ℕ} (y : Fin n → Fin m → EReal) : Prop := ∀ i j, ∃ r : ℝ, y i j = (r : EReal)

def Real1 {n : ℕ} (v : Fin n → EReal) : Prop := ∀ i, ∃ r : ℝ, v i = (r : EReal)

end Cert.Gin

end
-- ==== Proof.LibFinite.lean ====
import Idealize.ShloMosaic.PureOps.Ideal
import Idealize.ShloMosaic.PureOps.Ideal.Laws
import Idealize.ShloMosaic.PureOps.Contract
import Idealize.ShloMosaic.PureOps.ShapeOps
import Idealize.ShloMosaic.Lib.ValueIdx
import Mathlib.Data.EReal.Basic
import Mathlib.Data.EReal.Operations
import Mathlib.Data.EReal.Inv
import Mathlib.Algebra.BigOperators.Group.Finset.Basic

noncomputable section

open scoped BigOperators

namespace Cert.Lib

open Idealize.ShloMosaic

-- Sums, differences, products and maxima of reals are real: the coercion into the extended reals commutes with each.
theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, EReal.coe_strictMono.monotone.map_max⟩

theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem real_sum {ι : Type*} (t : Finset ι) (f : ι → EReal) (h : ∀ i ∈ t, ∃ r : ℝ, f i = (r : EReal)) :
    ∃ r : ℝ, ∑ i ∈ t, f i = (r : EReal) := by
  choose! g hg using h
  exact ⟨∑ i ∈ t, g i, by rw [coe_finset_sum]; exact Finset.sum_congr rfl hg⟩

theorem div_coe_coe (a : ℝ) {r : ℝ} (h : r ≠ 0) : Ideal.div (a : EReal) (r : EReal) = ((a / r : ℝ) : EReal) := by
  rw [Ideal.div_coe h, ← EReal.coe_mul, mul_one_div]

def AllReal {s : Shape} (v : s.Idx → EReal) : Prop := ∀ i, ∃ r : ℝ, v i = (r : EReal)

variable {s t : Shape} {φ : FTy}

theorem allReal_addf {x y : FVec Ideal s φ} (hx : AllReal x) (hy : AllReal y) : AllReal (addf x y) :=
  fun i => real_add (hx i) (hy i)

theorem allReal_constant_zero : AllReal (constant (F := Ideal) s .f32 0x00000000#32) :=
  fun _ => ⟨0, show Ideal.ofBits .f32 0x00000000#32 = ((0 : ℝ) : EReal) by rw [Ideal.ofBits_zero_f32, EReal.coe_zero]⟩

theorem allReal_constant_one : AllReal (constant (F := Ideal) s .f32 0x3F800000#32) :=
  fun _ => ⟨1, show Ideal.ofBits .f32 0x3F800000#32 = ((1 : ℝ) : EReal) by
    simp [Ideal.ofBits, Ideal.ieee, -EReal.coe_mul]; norm_num⟩

-- A broadcast or a gather only re-indexes: each entry of the result is an entry of the operand.
theorem allReal_broadcastInDim {x : s.Idx → EReal} {dims : Fin s.rank → Fin t.rank} (h : s.BroadcastsInDim t dims)
    (hx : AllReal x) : AllReal (broadcastInDim t dims h x) :=
  fun _ => hx _

theorem allReal_gather {si : Shape} {w : Nat} (d : GatherDims s si t) {x : s.Idx → EReal} (idx : IVec si w)
    (hx : AllReal x) : AllReal (Host.gather d x idx) :=
  fun _ => hx _

-- An accumulating scatter leaves each entry as the operand's entry plus a finite sum of update entries.
theorem allReal_scatterAdd {si u : Shape} {w : Nat} (d : ScatterDims s si u) {x : FVec Ideal s φ} (idx : IVec si w)
    {upd : FVec Ideal u φ} (hx : AllReal x) (hu : AllReal upd) : AllReal (Host.scatterAdd d x idx upd) :=
  fun i => real_add (hx i) (real_sum _ _ fun j _ => hu j)

end Cert.Lib
-- ==== Proof.Algebra.lean ====
import proofs.«427228_j78975858638933_3_alg».proof.Proof.Spec
import proofs.«427228_j78975858638933_3_alg».proof.Proof.LibFinite
import Mathlib.Data.EReal.Basic
import Mathlib.Data.EReal.Operations
import Mathlib.Data.EReal.Inv
import Mathlib.Analysis.SpecialFunctions.Pow.Real

noncomputable section

namespace Cert.Gin

open Idealize.ShloMosaic
open scoped BigOperators

theorem eps_eval : eps = (((10995116 : ℝ) * (2 : ℝ) ^ (-40 : ℤ) : ℝ) : EReal) := by
  unfold eps
  simp [Ideal.ofBits, Ideal.ieee, -EReal.coe_mul]

theorem eps_pos : ∃ e : ℝ, 0 < e ∧ eps = (e : EReal) :=
  ⟨(10995116 : ℝ) * (2 : ℝ) ^ (-40 : ℤ), by positivity, eps_eval⟩

-- Over N reals the mean of squares minus the squared mean is the mean of squared deviations: expand the square.
theorem real_var_identity {ι : Type*} (s : Finset ι) (f : ι → ℝ) (N : ℝ) (hN : N ≠ 0) (hc : (s.card : ℝ) = N) :
    (∑ i ∈ s, f i * f i) / N - (∑ i ∈ s, f i) / N * ((∑ i ∈ s, f i) / N)
      = (∑ i ∈ s, (f i - (∑ i ∈ s, f i) / N) * (f i - (∑ i ∈ s, f i) / N)) / N := by
  generalize hS : (∑ i ∈ s, f i) = S
  have h1 : ∑ i ∈ s, (f i - S / N) * (f i - S / N)
      = (∑ i ∈ s, f i * f i) - 2 * (S / N) * S + N * (S / N * (S / N)) := by
    have h2 : ∀ i, (f i - S / N) * (f i - S / N) = f i * f i - 2 * (S / N) * f i + S / N * (S / N) :=
      fun i => by ring
    simp only [h2]
    rw [Finset.sum_add_distrib, Finset.sum_sub_distrib, ← Finset.mul_sum, Finset.sum_const, nsmul_eq_mul, hc, hS]
  rw [h1]
  field_simp
  ring

theorem real_var_nonneg {ι : Type*} (s : Finset ι) (g : ι → ℝ) {N : ℝ} (hN : 0 ≤ N) :
    0 ≤ (∑ i ∈ s, g i * g i) / N :=
  div_nonneg (Finset.sum_nonneg fun i _ => mul_self_nonneg (g i)) hN

theorem Real2.exists_real {n m : ℕ} {y : Fin n → Fin m → EReal} (hy : Real2 y) :
    ∃ f : Fin n → Fin m → ℝ, y = fun i j => (f i j : EReal) := by
  choose f hf using hy
  exact ⟨f, funext fun i => funext fun j => hf i j⟩

def rmean (f : Fin 100000 → Fin 64 → ℝ) (j : Fin 64) : ℝ := (∑ i : Fin 100000, f i j) / 100000

def rvar (f : Fin 100000 → Fin 64 → ℝ) (j : Fin 64) : ℝ :=
  (∑ i : Fin 100000, (f i j - rmean f j) * (f i j - rmean f j)) / 100000

theorem rvar_nonneg (f : Fin 100000 → Fin 64 → ℝ) (j : Fin 64) : 0 ≤ rvar f j :=
  real_var_nonneg _ (fun i => f i j - rmean f j) (by norm_num)

theorem meanOf_coe (f : Fin 100000 → Fin 64 → ℝ) (j : Fin 64) :
    meanOf (fun i j => (f i j : EReal)) j = (rmean f j : EReal) := by
  simp only [meanOf, colSum, cnt, rmean]
  rw [← Cert.Lib.coe_finset_sum, Cert.Lib.div_coe_coe _ (by norm_num)]

theorem varR_coe (f : Fin 100000 → Fin 64 → ℝ) (j : Fin 64) :
    varR (fun i j => (f i j : EReal)) j = (rvar f j : EReal) := by
  simp only [varR, meanOf_coe, cnt, rvar]
  simp only [← EReal.coe_sub, ← EReal.coe_mul]
  rw [← Cert.Lib.coe_finset_sum, Cert.Lib.div_coe_coe _ (by norm_num)]

theorem varK_inner_coe (f : Fin 100000 → Fin 64 → ℝ) (j : Fin 64) :
    Ideal.div (colSumSq (fun i j => (f i j : EReal)) j) cnt
        - meanOf (fun i j => (f i j : EReal)) j * meanOf (fun i j => (f i j : EReal)) j
      = (rvar f j : EReal) := by
  simp only [meanOf_coe, colSumSq, cnt]
  simp only [← EReal.coe_mul]
  rw [← Cert.Lib.coe_finset_sum, Cert.Lib.div_coe_coe _ (by norm_num), ← EReal.coe_sub]
  congr 1
  simp only [rvar, rmean]
  exact real_var_identity Finset.univ (fun i => f i j) 100000 (by norm_num) (by simp)

theorem varK_coe (f : Fin 100000 → Fin 64 → ℝ) (j : Fin 64) :
    varK (fun i j => (f i j : EReal)) j = (rvar f j : EReal) := by
  unfold varK
  rw [varK_inner_coe]
  exact max_eq_left (by exact_mod_cast rvar_nonneg f j)

theorem varK_eq_varR {y : Fin 100000 → Fin 64 → EReal} (hy : Real2 y) (j : Fin 64) : varK y j = varR y j := by
  obtain ⟨f, rfl⟩ := hy.exists_real
  rw [varK_coe, varR_coe]

theorem varR_nonneg_real {y : Fin 100000 → Fin 64 → EReal} (hy : Real2 y) (j : Fin 64) :
    ∃ v : ℝ, 0 ≤ v ∧ varR y j = (v : EReal) := by
  obtain ⟨f, rfl⟩ := hy.exists_real
  exact ⟨rvar f j, rvar_nonneg f j, varR_coe f j⟩

theorem normK_eq_normR {y : Fin 100000 → Fin 64 → EReal} (hy : Real2 y) (g b : Fin 64 → EReal) :
    normK y g b = normR y g b := by
  funext i j
  obtain ⟨v, hv, hvr⟩ := varR_nonneg_real hy j
  have hmax : max (varR y j) 0 = varR y j := by
    rw [hvr]
    exact max_eq_left (by exact_mod_cast hv)
  simp only [normK, applyK, normR, varK_eq_varR hy j, hmax]

theorem rsqrt_var_real {y : Fin 100000 → Fin 64 → EReal} (hy : Real2 y) (j : Fin 64) :
    ∃ r : ℝ, Ideal.rsqrt (varR y j + eps) = (r : EReal) := by
  obtain ⟨v, hv, hvr⟩ := varR_nonneg_real hy j
  obtain ⟨e, he, hee⟩ := eps_pos
  have hpos : 0 < v + e := by positivity
  refine ⟨(Real.sqrt (v + e))⁻¹, ?_⟩
  rw [hvr, hee, ← EReal.coe_add, Ideal.rsqrt_coe, if_neg (not_lt.mpr hpos.le), if_neg hpos.ne']

theorem normR_real {y : Fin 100000 → Fin 64 → EReal} (hy : Real2 y) {g b : Fin 64 → EReal} (hg : Real1 g) (hb : Real1 b) :
    Real2 (normR y g b) := by
  intro i j
  obtain ⟨f, rfl⟩ := hy.exists_real
  have hm : ∃ r : ℝ, meanOf (fun i j => (f i j : EReal)) j = (r : EReal) := ⟨_, meanOf_coe f j⟩
  exact Cert.Lib.real_max
    (Cert.Lib.real_add
      (Cert.Lib.real_mul (Cert.Lib.real_mul (Cert.Lib.real_sub ⟨f i j, rfl⟩ hm) (rsqrt_var_real hy j)) (hg j))
      (hb j))
    ⟨0, EReal.coe_zero.symm⟩

theorem mlp0_real {x : Fin 100000 → EReal} {w1 b1 : Fin 64 → EReal} {w2 : Fin 64 → Fin 64 → EReal} {b2 : Fin 64 → EReal}
    (hx : Real1 x) (hw1 : Real1 w1) (hb1 : Real1 b1) (hw2 : Real2 w2) (hb2 : Real1 b2) : Real2 (mlp0 x w1 b1 w2 b2) := by
  intro i j
  exact Cert.Lib.real_add
    (Cert.Lib.real_sum _ _ fun k _ =>
      Cert.Lib.real_mul
        (Cert.Lib.real_max (Cert.Lib.real_add (Cert.Lib.real_mul (hx i) (hw1 k)) (hb1 k)) ⟨0, EReal.coe_zero.symm⟩)
        (hw2 k j))
    (hb2 j)

theorem mlp_real {x : Fin 100000 → Fin 64 → EReal} {w1 : Fin 64 → Fin 64 → EReal} {b1 : Fin 64 → EReal}
    {w2 : Fin 64 → Fin 64 → EReal} {b2 : Fin 64 → EReal}
    (hx : Real2 x) (hw1 : Real2 w1) (hb1 : Real1 b1) (hw2 : Real2 w2) (hb2 : Real1 b2) : Real2 (mlp x w1 b1 w2 b2) := by
  intro i j
  exact Cert.Lib.real_add
    (Cert.Lib.real_sum _ _ fun k _ =>
      Cert.Lib.real_mul
        (Cert.Lib.real_max
          (Cert.Lib.real_add (Cert.Lib.real_sum _ _ fun l _ => Cert.Lib.real_mul (hx i l) (hw1 l k)) (hb1 k))
          ⟨0, EReal.coe_zero.symm⟩)
        (hw2 k j))
    (hb2 j)

end Cert.Gin

end
-- ==== Proof.Net.lean ====
import proofs.«427228_j78975858638933_3_alg».proof.Proof.Spec
import proofs.«427228_j78975858638933_3_alg».proof.Proof.Algebra

noncomputable section

namespace Cert.Gin

theorem mlp0_congr {x x' : Fin 100000 → EReal} {w1 w1' b1 b1' : Fin 64 → EReal} {w2 w2' : Fin 64 → Fin 64 → EReal}
    {b2 b2' : Fin 64 → EReal} (hx : x = x') (hw1 : w1 = w1') (hb1 : b1 = b1') (hw2 : w2 = w2') (hb2 : b2 = b2') :
    mlp0 x w1 b1 w2 b2 = mlp0 x' w1' b1' w2' b2' := by
  subst hx hw1 hb1 hw2 hb2; rfl

theorem mlp_congr {x x' : Fin 100000 → Fin 64 → EReal} {w1 w1' : Fin 64 → Fin 64 → EReal} {b1 b1' : Fin 64 → EReal}
    {w2 w2' : Fin 64 → Fin 64 → EReal} {b2 b2' : Fin 64 → EReal}
    (hx : x = x') (hw1 : w1 = w1') (hb1 : b1 = b1') (hw2 : w2 = w2') (hb2 : b2 = b2') :
    mlp x w1 b1 w2 b2 = mlp x' w1' b1' w2' b2' := by
  subst hx hw1 hb1 hw2 hb2; rfl

theorem applyK_congr {y y' : Fin 100000 → Fin 64 → EReal} {mean mean' var var' g g' b b' : Fin 64 → EReal}
    (hy : y = y') (hm : mean = mean') (hv : var = var') (hg : g = g') (hb : b = b') :
    applyK y mean var g b = applyK y' mean' var' g' b' := by
  subst hy hm hv hg hb; rfl

structure Params where
  w1_0 : Fin 64 → EReal
  b1_0 : Fin 64 → EReal
  w2_0 : Fin 64 → Fin 64 → EReal
  b2_0 : Fin 64 → EReal
  ws1 : Fin 3 → Fin 64 → Fin 64 → EReal
  bs1 : Fin 3 → Fin 64 → EReal
  ws2 : Fin 3 → Fin 64 → Fin 64 → EReal
  bs2 : Fin 3 → Fin 64 → EReal
  gam : Fin 4 → Fin 64 → EReal
  bet : Fin 4 → Fin 64 → EReal

def Params.Real (p : Params) : Prop :=
  Real1 p.w1_0 ∧ Real1 p.b1_0 ∧ Real2 p.w2_0 ∧ Real1 p.b2_0 ∧ (∀ l, Real2 (p.ws1 l)) ∧ (∀ l, Real1 (p.bs1 l))
    ∧ (∀ l, Real2 (p.ws2 l)) ∧ (∀ l, Real1 (p.bs2 l)) ∧ (∀ l, Real1 (p.gam l)) ∧ (∀ l, Real1 (p.bet l))

abbrev Norm := (Fin 100000 → Fin 64 → EReal) → (Fin 64 → EReal) → (Fin 64 → EReal) → Fin 100000 → Fin 64 → EReal

def layer0 (norm : Norm) (x0 : Fin 100000 → EReal) (p : Params) : Fin 100000 → Fin 64 → EReal :=
  norm (mlp0 x0 p.w1_0 p.b1_0 p.w2_0 p.b2_0) (p.gam 0) (p.bet 0)

def layerN (norm : Norm) (L : Fin 3) (x : Fin 100000 → Fin 64 → EReal) (p : Params) : Fin 100000 → Fin 64 → EReal :=
  norm (mlp x (p.ws1 L) (p.bs1 L) (p.ws2 L) (p.bs2 L)) (p.gam L.succ) (p.bet L.succ)

-- Four layers, an aggregation step before each of the last three.
def net (norm : Norm) (x0 : Fin 100000 → EReal)
    (agg : (Fin 100000 → Fin 64 → EReal) → Fin 100000 → Fin 64 → EReal) (p : Params) : Fin 100000 → Fin 64 → EReal :=
  layerN norm 2 (agg (layerN norm 1 (agg (layerN norm 0 (agg (layer0 norm x0 p)) p)) p)) p

-- On real data the two normalisations agree, and a layer of real data is real again: induct through the layers.
theorem net_eq {x0 : Fin 100000 → EReal} {agg : (Fin 100000 → Fin 64 → EReal) → Fin 100000 → Fin 64 → EReal} {p : Params}
    (hx0 : Real1 x0) (hagg : ∀ h, Real2 h → Real2 (agg h)) (hp : p.Real) :
    net normK x0 agg p = net normR x0 agg p := by
  obtain ⟨h1, h2, h3, h4, h5, h6, h7, h8, h9, h10⟩ := hp
  have e0 : layer0 normK x0 p = layer0 normR x0 p := normK_eq_normR (mlp0_real hx0 h1 h2 h3 h4) _ _
  have r0 : Real2 (layer0 normR x0 p) := normR_real (mlp0_real hx0 h1 h2 h3 h4) (h9 0) (h10 0)
  have step : ∀ (L : Fin 3) (x : Fin 100000 → Fin 64 → EReal), Real2 x →
      layerN normK L x p = layerN normR L x p ∧ Real2 (layerN normR L x p) := fun L x hx =>
    ⟨normK_eq_normR (mlp_real hx (h5 L) (h6 L) (h7 L) (h8 L)) _ _,
      normR_real (mlp_real hx (h5 L) (h6 L) (h7 L) (h8 L)) (h9 _) (h10 _)⟩
  unfold net
  rw [e0]
  have s0 := step 0 (agg (layer0 normR x0 p)) (hagg _ r0)
  rw [s0.1]
  have s1 := step 1 _ (hagg _ s0.2)
  rw [s1.1]
  have s2 := step 2 _ (hagg _ s1.2)
  rw [s2.1]

end Cert.Gin

end
-- ==== Proof.KHost.lean ====
import proofs.«427228_j78975858638933_3_alg».proof.Proof.Gen.KernelIdeal.Frame
import proofs.«427228_j78975858638933_3_alg».proof.Proof.Spec
import proofs.«427228_j78975858638933_3_alg».proof.Proof.LibFinite
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)
open scoped BigOperators

open Idealize.ShloMosaic.StableHlo (after)

def aggK (h : FVec Ideal S100000x64 .f32) (src dst : IVec S1600000 32) : FVec Ideal S100000x64 .f32 :=
  addf h
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))

def aggdegK (src dst : IVec S1600000 32) : FVec Ideal S100000x1 .f32 :=
  addf
    (broadcastInDim S100000x1 ![0] bcast_S100000_S100000x1_0
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32))))
    (Host.scatterAdd scatter_S100000x1_S1600000x1_S1600000x1_1_0_0_1
      (broadcastInDim S100000x1 ![] bcast_S_S100000x1 (constant (F := Ideal) S_ .f32 0x00000000#32))
      (broadcastInDim S1600000x1 ![0] bcast_S1600000_S1600000x1_0 dst)
      (Host.gather gather_S100000x1_S1600000x1_S1600000x1_1_0_n_n_0_1_11
        (broadcastInDim S100000x1 ![0] bcast_S100000_S100000x1_0
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32))))
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))

theorem aggK_real {h : FVec Ideal S100000x64 .f32} (hh : Cert.Lib.AllReal h) (src dst : IVec S1600000 32) :
    Cert.Lib.AllReal (aggK h src dst) := by
  unfold aggK
  exact Cert.Lib.allReal_addf hh
    (Cert.Lib.allReal_scatterAdd (φ := .f32) _ _ (Cert.Lib.allReal_broadcastInDim _ Cert.Lib.allReal_constant_zero)
      (Cert.Lib.allReal_gather _ _ hh))

theorem aggdegK_real (src dst : IVec S1600000 32) : Cert.Lib.AllReal (aggdegK src dst) := by
  unfold aggdegK
  have hcol := Cert.Lib.allReal_broadcastInDim bcast_S100000_S100000x1_0
    (Cert.Lib.allReal_scatterAdd (φ := .f32) scatter_S100000_S1600000x1_S1600000_n_0_0_1
      (broadcastInDim S1600000x1 ![0] bcast_S1600000_S1600000x1_0 dst)
      (Cert.Lib.allReal_broadcastInDim bcast_S_S100000 Cert.Lib.allReal_constant_zero)
      (Cert.Lib.allReal_broadcastInDim bcast_S_S1600000 Cert.Lib.allReal_constant_one))
  exact Cert.Lib.allReal_addf hcol
    (Cert.Lib.allReal_scatterAdd (φ := .f32) _ _ (Cert.Lib.allReal_broadcastInDim _ Cert.Lib.allReal_constant_zero)
      (Cert.Lib.allReal_gather _ _ hcol))

theorem ofBits_cnt : Ideal.ofBits .f32 0x47C35000#32 = Cert.Gin.cnt := by
  unfold Cert.Gin.cnt
  simp [Ideal.ofBits, Ideal.ieee, -EReal.coe_mul]; norm_num

variable (W : Valuation τ sig (Elt Ideal))

-- Row `L` of a table with 64 columns, as a one-row matrix.
theorem slicesRow {n : Nat} (L : Fin n) : (⟨2, ![n, 64]⟩ : Shape).Slices ![L.val, 0] S1x64 :=
  ⟨rfl, fun a => by
    match a with
    | ⟨0, _⟩ => exact L.isLt
    | ⟨1, _⟩ => exact Nat.le_refl 64⟩

def rowOf {n : Nat} (L : Fin n) (A : FVec Ideal ⟨2, ![n, 64]⟩ .f32) : FVec Ideal S1x64 .f32 :=
  shapeCast S1x64 (shapeCast S64 (extractStridedSlice S1x64 ![L.val, 0] A (slicesRow L)) shapeCasts_S1x64_S64) shapeCasts_S64_S1x64

theorem rowOf_apply {n : Nat} (L : Fin n) (A : FVec Ideal ⟨2, ![n, 64]⟩ .f32) (k : Fin 64) : rowOf L A (ix2 0 k) = A (ix2 L k) := by
  unfold rowOf
  rw [shapeCast_a_1a_apply _ _ 0 k, shapeCast_1a_a_apply]
  exact slice2_axis0_apply L.val _ _ 0 k L rfl

-- Matrix `L` of a stack of three 64 by 64 matrices.
theorem slicesMat (L : Fin 3) : S3x64x64.Slices ![L.val, 0, 0] S1x64x64 :=
  ⟨rfl, fun a => by
    match a with
    | ⟨0, _⟩ => exact L.isLt
    | ⟨1, _⟩ => exact Nat.le_refl 64
    | ⟨2, _⟩ => exact Nat.le_refl 64⟩

def matOf (L : Fin 3) (A : FVec Ideal S3x64x64 .f32) : FVec Ideal S64x64 .f32 :=
  shapeCast S64x64 (extractStridedSlice S1x64x64 ![L.val, 0, 0] A (slicesMat L)) shapeCasts_S1x64x64_S64x64

theorem matOf_apply (L : Fin 3) (A : FVec Ideal S3x64x64 .f32) (l k : Fin 64) : matOf L A (ix2 l k) = A (ix3 L l k) := by
  unfold matOf
  rw [shapeCast_1ab_ab_apply]
  exact extractStridedSlice_apply _ _ _ _ (ix3 L l k) (fun a => by
    match a with
    | ⟨0, _⟩ => rfl
    | ⟨1, _⟩ => exact (Nat.zero_add _).symm
    | ⟨2, _⟩ => exact (Nat.zero_add _).symm)

-- A row of sums divided by the number of rows.
def meanRow (s : FVec Ideal S1x64 .f32) : FVec Ideal S1x64 .f32 :=
  Host.divf s (broadcastInDim S1x64 ![] bcast_S_S1x64 (constant (F := Ideal) S_ .f32 0x47C35000#32))

-- The mean of the squares less the square of the mean, not below zero.
def varRow (s q : FVec Ideal S1x64 .f32) : FVec Ideal S1x64 .f32 :=
  maximumf (subf (meanRow q) (mulf (meanRow s) (meanRow s)))
    (broadcastInDim S1x64 ![] bcast_S_S1x64 (constant (F := Ideal) S_ .f32 0x00000000#32))

theorem meanRow_of {s : FVec Ideal S1x64 .f32} {y : Fin 100000 → Fin 64 → EReal} (hs : ∀ j, s (ix2 0 j) = Gin.colSum y j) :
    (fun j => meanRow s (ix2 0 j)) = Gin.meanOf y :=
  funext fun j => by
    show Ideal.div (s (ix2 0 j)) (Ideal.ofBits .f32 0x47C35000#32) = _
    rw [ofBits_cnt, hs]
    rfl

theorem varRow_of {s q : FVec Ideal S1x64 .f32} {y : Fin 100000 → Fin 64 → EReal} (hs : ∀ j, s (ix2 0 j) = Gin.colSum y j)
    (hq : ∀ j, q (ix2 0 j) = Gin.colSumSq y j) : (fun j => varRow s q (ix2 0 j)) = Gin.varK y :=
  funext fun j => by
    show max (Ideal.div (q (ix2 0 j)) (Ideal.ofBits .f32 0x47C35000#32)
        - Ideal.div (s (ix2 0 j)) (Ideal.ofBits .f32 0x47C35000#32) * Ideal.div (s (ix2 0 j)) (Ideal.ofBits .f32 0x47C35000#32))
      (Ideal.ofBits .f32 0x00000000#32) = _
    rw [ofBits_cnt, Ideal.ofBits_zero_f32, hs, hq]
    rfl

theorem host0_x : (after hostOps0 W (Proc.devRef .tc main_v15) : FVec Ideal S100000x1 .f32) = aggdegK (W (Proc.devRef .tc main_arg0)) (W (Proc.devRef .tc main_arg1)) := by
  after_results_simp
  rfl
theorem host0_b1 : (after hostOps0 W (Proc.devRef .tc main_v20) : FVec Ideal S1x64 .f32) = shapeCast S1x64 (W (Proc.devRef .tc main_arg3) : FVec Ideal S64 .f32) shapeCasts_S64_S1x64 := by
  after_results_simp
  rfl
theorem host0_b2 : (after hostOps0 W (Proc.devRef .tc main_v21) : FVec Ideal S1x64 .f32) = shapeCast S1x64 (W (Proc.devRef .tc main_arg5) : FVec Ideal S64 .f32) shapeCasts_S64_S1x64 := by
  after_results_simp
  rfl
theorem host0_g : (after hostOps0 W (Proc.devRef .tc main_v22) : FVec Ideal S1x64 .f32) = rowOf 0 (W (Proc.devRef .tc main_arg10) : FVec Ideal S4x64 .f32) := by
  after_results_simp
  rfl
theorem host0_b : (after hostOps0 W (Proc.devRef .tc main_v23) : FVec Ideal S1x64 .f32) = rowOf 0 (W (Proc.devRef .tc main_arg11) : FVec Ideal S4x64 .f32) := by
  after_results_simp
  rfl

def writes0 : List (Ref sig .tc) :=
  [main_cst, main_v0, main_cst_0, main_v1, main_v2, main_v3, main_v4, main_c, main_v5, main_v6, main_c_1, main_v7, main_v8, main_v9,
   main_v10, main_v11, main_cst_2, main_v12, main_v13, main_v14, main_v15, main_v16, main_v17, main_v18, main_v19, main_v20, main_v21,
   main_v22, main_v23]

theorem host0_keep (r : Ref sig .tc) (hr : r ∉ writes0) : after hostOps0 W (Proc.devRef .tc r) = W (Proc.devRef .tc r) := by
  refine StableHlo.after_of_writes_sub hostOps0 W ?_ hr
  simp only [hostOps0, writes0, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

theorem host1_mean : (after hostOps1 W (Proc.devRef .tc main_v26) : FVec Ideal S1x64 .f32) = meanRow (W (Proc.devRef .tc main_v24_0)) := by
  after_results_simp
  rfl
theorem host1_var : (after hostOps1 W (Proc.devRef .tc main_v32) : FVec Ideal S1x64 .f32) = varRow (W (Proc.devRef .tc main_v24_0)) (W (Proc.devRef .tc main_v24_1)) := by
  after_results_simp
  rfl

def writes1 : List (Ref sig .tc) :=
  [main_cst_3, main_v25, main_v26, main_cst_4, main_v27, main_v28, main_v29, main_v30, main_cst_5, main_v31, main_v32]

theorem host1_keep (r : Ref sig .tc) (hr : r ∉ writes1) : after hostOps1 W (Proc.devRef .tc r) = W (Proc.devRef .tc r) := by
  refine StableHlo.after_of_writes_sub hostOps1 W ?_ hr
  simp only [hostOps1, writes1, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

theorem host2_x : (after hostOps2 W (Proc.devRef .tc main_v44) : FVec Ideal S100000x64 .f32) = aggK (W (Proc.devRef .tc main_v33)) (W (Proc.devRef .tc main_arg0)) (W (Proc.devRef .tc main_arg1)) := by
  after_results_simp
  rfl
theorem host2_w1 : (after hostOps2 W (Proc.devRef .tc main_v46) : FVec Ideal S64x64 .f32) = matOf 0 (W (Proc.devRef .tc main_arg6) : FVec Ideal S3x64x64 .f32) := by
  after_results_simp
  rfl
theorem host2_b1 : (after hostOps2 W (Proc.devRef .tc main_v57) : FVec Ideal S1x64 .f32) = rowOf 0 (W (Proc.devRef .tc main_arg7) : FVec Ideal S3x64 .f32) := by
  after_results_simp
  rfl
theorem host2_w2 : (after hostOps2 W (Proc.devRef .tc main_v50) : FVec Ideal S64x64 .f32) = matOf 0 (W (Proc.devRef .tc main_arg8) : FVec Ideal S3x64x64 .f32) := by
  after_results_simp
  rfl
theorem host2_b2 : (after hostOps2 W (Proc.devRef .tc main_v58) : FVec Ideal S1x64 .f32) = rowOf 0 (W (Proc.devRef .tc main_arg9) : FVec Ideal S3x64 .f32) := by
  after_results_simp
  rfl
theorem host2_g : (after hostOps2 W (Proc.devRef .tc main_v59) : FVec Ideal S1x64 .f32) = rowOf 1 (W (Proc.devRef .tc main_arg10) : FVec Ideal S4x64 .f32) := by
  after_results_simp
  rfl
theorem host2_b : (after hostOps2 W (Proc.devRef .tc main_v60) : FVec Ideal S1x64 .f32) = rowOf 1 (W (Proc.devRef .tc main_arg11) : FVec Ideal S4x64 .f32) := by
  after_results_simp
  rfl

def writes2 : List (Ref sig .tc) :=
  [main_c_6, main_v34, main_v35, main_c_7, main_v36, main_v37, main_v38, main_v39, main_v40, main_cst_8, main_v41, main_v42, main_v43,
   main_v44, main_v45, main_v46, main_v47, main_v48, main_v49, main_v50, main_v51, main_v52, main_v53, main_v54, main_v55, main_v56,
   main_v57, main_v58, main_v59, main_v60]

theorem host2_keep (r : Ref sig .tc) (hr : r ∉ writes2) : after hostOps2 W (Proc.devRef .tc r) = W (Proc.devRef .tc r) := by
  refine StableHlo.after_of_writes_sub hostOps2 W ?_ hr
  simp only [hostOps2, writes2, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

theorem host3_mean : (after hostOps3 W (Proc.devRef .tc main_v63) : FVec Ideal S1x64 .f32) = meanRow (W (Proc.devRef .tc main_v61_0)) := by
  after_results_simp
  rfl
theorem host3_var : (after hostOps3 W (Proc.devRef .tc main_v69) : FVec Ideal S1x64 .f32) = varRow (W (Proc.devRef .tc main_v61_0)) (W (Proc.devRef .tc main_v61_1)) := by
  after_results_simp
  rfl

def writes3 : List (Ref sig .tc) :=
  [main_cst_9, main_v62, main_v63, main_cst_10, main_v64, main_v65, main_v66, main_v67, main_cst_11, main_v68, main_v69]

theorem host3_keep (r : Ref sig .tc) (hr : r ∉ writes3) : after hostOps3 W (Proc.devRef .tc r) = W (Proc.devRef .tc r) := by
  refine StableHlo.after_of_writes_sub hostOps3 W ?_ hr
  simp only [hostOps3, writes3, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

theorem host4_x : (after hostOps4 W (Proc.devRef .tc main_v81) : FVec Ideal S100000x64 .f32) = aggK (W (Proc.devRef .tc main_v70)) (W (Proc.devRef .tc main_arg0)) (W (Proc.devRef .tc main_arg1)) := by
  after_results_simp
  rfl
theorem host4_w1 : (after hostOps4 W (Proc.devRef .tc main_v83) : FVec Ideal S64x64 .f32) = matOf 1 (W (Proc.devRef .tc main_arg6) : FVec Ideal S3x64x64 .f32) := by
  after_results_simp
  rfl
theorem host4_b1 : (after hostOps4 W (Proc.devRef .tc main_v94) : FVec Ideal S1x64 .f32) = rowOf 1 (W (Proc.devRef .tc main_arg7) : FVec Ideal S3x64 .f32) := by
  after_results_simp
  rfl
theorem host4_w2 : (after hostOps4 W (Proc.devRef .tc main_v87) : FVec Ideal S64x64 .f32) = matOf 1 (W (Proc.devRef .tc main_arg8) : FVec Ideal S3x64x64 .f32) := by
  after_results_simp
  rfl
theorem host4_b2 : (after hostOps4 W (Proc.devRef .tc main_v95) : FVec Ideal S1x64 .f32) = rowOf 1 (W (Proc.devRef .tc main_arg9) : FVec Ideal S3x64 .f32) := by
  after_results_simp
  rfl
theorem host4_g : (after hostOps4 W (Proc.devRef .tc main_v96) : FVec Ideal S1x64 .f32) = rowOf 2 (W (Proc.devRef .tc main_arg10) : FVec Ideal S4x64 .f32) := by
  after_results_simp
  rfl
theorem host4_b : (after hostOps4 W (Proc.devRef .tc main_v97) : FVec Ideal S1x64 .f32) = rowOf 2 (W (Proc.devRef .tc main_arg11) : FVec Ideal S4x64 .f32) := by
  after_results_simp
  rfl

def writes4 : List (Ref sig .tc) :=
  [main_c_12, main_v71, main_v72, main_c_13, main_v73, main_v74, main_v75, main_v76, main_v77, main_cst_14, main_v78, main_v79, main_v80,
   main_v81, main_v82, main_v83, main_v84, main_v85, main_v86, main_v87, main_v88, main_v89, main_v90, main_v91, main_v92, main_v93,
   main_v94, main_v95, main_v96, main_v97]

theorem host4_keep (r : Ref sig .tc) (hr : r ∉ writes4) : after hostOps4 W (Proc.devRef .tc r) = W (Proc.devRef .tc r) := by
  refine StableHlo.after_of_writes_sub hostOps4 W ?_ hr
  simp only [hostOps4, writes4, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

theorem host5_mean : (after hostOps5 W (Proc.devRef .tc main_v100) : FVec Ideal S1x64 .f32) = meanRow (W (Proc.devRef .tc main_v98_0)) := by
  after_results_simp
  rfl
theorem host5_var : (after hostOps5 W (Proc.devRef .tc main_v106) : FVec Ideal S1x64 .f32) = varRow (W (Proc.devRef .tc main_v98_0)) (W (Proc.devRef .tc main_v98_1)) := by
  after_results_simp
  rfl

def writes5 : List (Ref sig .tc) :=
  [main_cst_15, main_v99, main_v100, main_cst_16, main_v101, main_v102, main_v103, main_v104, main_cst_17, main_v105, main_v106]

theorem host5_keep (r : Ref sig .tc) (hr : r ∉ writes5) : after hostOps5 W (Proc.devRef .tc r) = W (Proc.devRef .tc r) := by
  refine StableHlo.after_of_writes_sub hostOps5 W ?_ hr
  simp only [hostOps5, writes5, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

theorem host6_x : (after hostOps6 W (Proc.devRef .tc main_v118) : FVec Ideal S100000x64 .f32) = aggK (W (Proc.devRef .tc main_v107)) (W (Proc.devRef .tc main_arg0)) (W (Proc.devRef .tc main_arg1)) := by
  after_results_simp
  rfl
theorem host6_w1 : (after hostOps6 W (Proc.devRef .tc main_v120) : FVec Ideal S64x64 .f32) = matOf 2 (W (Proc.devRef .tc main_arg6) : FVec Ideal S3x64x64 .f32) := by
  after_results_simp
  rfl
theorem host6_b1 : (after hostOps6 W (Proc.devRef .tc main_v131) : FVec Ideal S1x64 .f32) = rowOf 2 (W (Proc.devRef .tc main_arg7) : FVec Ideal S3x64 .f32) := by
  after_results_simp
  rfl
theorem host6_w2 : (after hostOps6 W (Proc.devRef .tc main_v124) : FVec Ideal S64x64 .f32) = matOf 2 (W (Proc.devRef .tc main_arg8) : FVec Ideal S3x64x64 .f32) := by
  after_results_simp
  rfl
theorem host6_b2 : (after hostOps6 W (Proc.devRef .tc main_v132) : FVec Ideal S1x64 .f32) = rowOf 2 (W (Proc.devRef .tc main_arg9) : FVec Ideal S3x64 .f32) := by
  after_results_simp
  rfl
theorem host6_g : (after hostOps6 W (Proc.devRef .tc main_v133) : FVec Ideal S1x64 .f32) = rowOf 3 (W (Proc.devRef .tc main_arg10) : FVec Ideal S4x64 .f32) := by
  after_results_simp
  rfl
theorem host6_b : (after hostOps6 W (Proc.devRef .tc main_v134) : FVec Ideal S1x64 .f32) = rowOf 3 (W (Proc.devRef .tc main_arg11) : FVec Ideal S4x64 .f32) := by
  after_results_simp
  rfl

theorem host7_mean : (after hostOps7 W (Proc.devRef .tc main_v137) : FVec Ideal S1x64 .f32) = meanRow (W (Proc.devRef .tc main_v135_0)) := by
  after_results_simp
  rfl
theorem host7_var : (after hostOps7 W (Proc.devRef .tc main_v143) : FVec Ideal S1x64 .f32) = varRow (W (Proc.devRef .tc main_v135_0)) (W (Proc.devRef .tc main_v135_1)) := by
  after_results_simp
  rfl

def writes7 : List (Ref sig .tc) :=
  [main_cst_21, main_v136, main_v137, main_cst_22, main_v138, main_v139, main_v140, main_v141, main_cst_23, main_v142, main_v143]

theorem host7_keep (r : Ref sig .tc) (hr : r ∉ writes7) : after hostOps7 W (Proc.devRef .tc r) = W (Proc.devRef .tc r) := by
  refine StableHlo.after_of_writes_sub hostOps7 W ?_ hr
  simp only [hostOps7, writes7, List.Forall, StableHlo.nullary_writes, StableHlo.unary_writes, StableHlo.binary_writes,
    StableHlo.ternary_writes, StableHlo.reshape_writes, Finset.singleton_subset_iff, List.mem_toFinset, List.map_cons, List.map_nil,
    List.mem_cons, true_or, or_true, and_self]

end Cert.KernelIdeal.Val

end
-- ==== Proof.KParams.lean ====
import proofs.«427228_j78975858638933_3_alg».proof.Proof.Net
import proofs.«427228_j78975858638933_3_alg».proof.Proof.KHost

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

def pK : Gin.Params where
  w1_0 k := (m ((c : Thread nD τ).loc main_arg2) : FVec Ideal S1x64 .f32) (ix2 0 k)
  b1_0 k := (m ((c : Thread nD τ).loc main_arg3) : FVec Ideal S64 .f32) (ix1 k)
  w2_0 l k := (m ((c : Thread nD τ).loc main_arg4) : FVec Ideal S64x64 .f32) (ix2 l k)
  b2_0 k := (m ((c : Thread nD τ).loc main_arg5) : FVec Ideal S64 .f32) (ix1 k)
  ws1 L l k := (m ((c : Thread nD τ).loc main_arg6) : FVec Ideal S3x64x64 .f32) (ix3 L l k)
  bs1 L k := (m ((c : Thread nD τ).loc main_arg7) : FVec Ideal S3x64 .f32) (ix2 L k)
  ws2 L l k := (m ((c : Thread nD τ).loc main_arg8) : FVec Ideal S3x64x64 .f32) (ix3 L l k)
  bs2 L k := (m ((c : Thread nD τ).loc main_arg9) : FVec Ideal S3x64 .f32) (ix2 L k)
  gam L k := (m ((c : Thread nD τ).loc main_arg10) : FVec Ideal S4x64 .f32) (ix2 L k)
  bet L k := (m ((c : Thread nD τ).loc main_arg11) : FVec Ideal S4x64 .f32) (ix2 L k)

def x0K : Fin 100000 → EReal := fun i => aggdegK (m ((c : Thread nD τ).loc main_arg0)) (m ((c : Thread nD τ).loc main_arg1)) (ix2 i 0)

def arr2 (f : Fin 100000 → Fin 64 → EReal) : FVec Ideal S100000x64 .f32 := fun idx => f (idx 0) (idx 1)

theorem arr2_of (A : FVec Ideal S100000x64 .f32) : arr2 (fun i j => A (ix2 i j)) = A :=
  funext fun idx => congrArg A (eq_ix2 idx).symm

def aggFK (f : Fin 100000 → Fin 64 → EReal) : Fin 100000 → Fin 64 → EReal :=
  fun i l => aggK (arr2 f) (m ((c : Thread nD τ).loc main_arg0)) (m ((c : Thread nD τ).loc main_arg1)) (ix2 i l)

end Cert.KernelIdeal.Val

end
-- ==== Proof.KArgs.lean ====
import proofs.«427228_j78975858638933_3_alg».proof.Proof.KHost

noncomputable section

namespace Cert.KernelIdeal.Val

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

-- The two index vectors and the six stacked parameter tables.
def stackArgs : List (Ref sig .tc) :=
  [main_arg0, main_arg1, main_arg6, main_arg7, main_arg8, main_arg9, main_arg10, main_arg11]

theorem W0_arg (r : Ref sig .tc) : W0 m ρ c (Proc.devRef .tc r) = m ((c : Thread nD τ).loc r) := rfl

-- Nothing before a layer's end writes these arguments, so there they are as launched.
theorem W4_arg (r : Ref sig .tc) (hr : r ∈ stackArgs) : W4 m ρ c (Proc.devRef .tc r) = m ((c : Thread nD τ).loc r) :=
  (W4_of_ne m ρ c r ((by decide : ∀ r ∈ stackArgs, ∀ w, Pipeline.arrRef spec1 w ≠ r) r hr)).trans
    ((host1_keep _ r ((by decide : ∀ r ∈ stackArgs, r ∉ writes1) r hr)).trans
      ((W2_of_ne m ρ c r ((by decide : ∀ r ∈ stackArgs, ∀ w, Pipeline.arrRef spec0 w ≠ r) r hr)).trans
        (host0_keep _ r ((by decide : ∀ r ∈ stackArgs, r ∉ writes0) r hr))))

theorem W8_arg (r : Ref sig .tc) (hr : r ∈ stackArgs) : W8 m ρ c (Proc.devRef .tc r) = m ((c : Thread nD τ).loc r) :=
  (W8_of_ne m ρ c r ((by decide : ∀ r ∈ stackArgs, ∀ w, Pipeline.arrRef spec3 w ≠ r) r hr)).trans
    ((host3_keep _ r ((by decide : ∀ r ∈ stackArgs, r ∉ writes3) r hr)).trans
      ((W6_of_ne m ρ c r ((by decide : ∀ r ∈ stackArgs, ∀ w, Pipeline.arrRef spec2 w ≠ r) r hr)).trans
        ((host2_keep _ r ((by decide : ∀ r ∈ stackArgs, r ∉ writes2) r hr)).trans (W4_arg m ρ c r hr))))

theorem W12_arg (r : Ref sig .tc) (hr : r ∈ stackArgs) : W12 m ρ c (Proc.devRef .tc r) = m ((c : Thread nD τ).loc r) :=
  (W12_of_ne m ρ c r ((by decide : ∀ r ∈ stackArgs, ∀ w, Pipeline.arrRef spec5 w ≠ r) r hr)).trans
    ((host5_keep _ r ((by decide : ∀ r ∈ stackArgs, r ∉ writes5) r hr)).trans
      ((W10_of_ne m ρ c r ((by decide : ∀ r ∈ stackArgs, ∀ w, Pipeline.arrRef spec4 w ≠ r) r hr)).trans
        ((host4_keep _ r ((by decide : ∀ r ∈ stackArgs, r ∉ writes4) r hr)).trans (W8_arg m ρ c r hr))))

end Cert.KernelIdeal.Val

end
-- ==== Proof.KLayer.lean ====
import proofs.«427228_j78975858638933_3_alg».proof.Proof.KParams
import proofs.«427228_j78975858638933_3_alg».proof.Proof.KArgs

noncomputable section

namespace Cert.KernelIdeal.Val

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

-- Dividing the column sums by the number of rows gives the normalisation's own mean and variance.
theorem normK_of {y y' Y : Fin 100000 → Fin 64 → EReal} {s q mean var g b : FVec Ideal S1x64 .f32} {G B : Fin 64 → EReal}
    (hy : y = Y) (hy' : y' = Y) (hs : ∀ j, s (ix2 0 j) = Gin.colSum y j) (hq : ∀ j, q (ix2 0 j) = Gin.colSumSq y j)
    (hmean : mean = meanRow s) (hvar : var = varRow s q) (hg : (fun j => g (ix2 0 j)) = G) (hb : (fun j => b (ix2 0 j)) = B) :
    Gin.applyK y' (fun j => mean (ix2 0 j)) (fun j => var (ix2 0 j)) (fun j => g (ix2 0 j)) (fun j => b (ix2 0 j)) = Gin.normK Y G B := by
  subst hy hy' hmean hvar
  rw [meanRow_of hs, varRow_of hs hq, hg, hb]
  rfl

variable {W : Valuation τ sig (Elt Ideal)} (hW : ∀ r ∈ stackArgs, W (Proc.devRef .tc r) = m ((c : Thread nD τ).loc r))
include hW

-- A stacked layer's perceptron on arrays cut from contents whose stacked arguments are as launched.
theorem mlp_of (L : Fin 3) {A x : FVec Ideal S100000x64 .f32} {w1 w2 : FVec Ideal S64x64 .f32} {b1 b2 : FVec Ideal S1x64 .f32}
    (hx : x = aggK A (W (Proc.devRef .tc main_arg0)) (W (Proc.devRef .tc main_arg1)))
    (hw1 : w1 = matOf L (W (Proc.devRef .tc main_arg6))) (hb1 : b1 = rowOf L (W (Proc.devRef .tc main_arg7) : FVec Ideal S3x64 .f32))
    (hw2 : w2 = matOf L (W (Proc.devRef .tc main_arg8))) (hb2 : b2 = rowOf L (W (Proc.devRef .tc main_arg9) : FVec Ideal S3x64 .f32)) :
    Gin.mlp (fun i l => x (ix2 i l)) (fun l k => w1 (ix2 l k)) (fun k => b1 (ix2 0 k)) (fun l k => w2 (ix2 l k)) (fun k => b2 (ix2 0 k))
      = Gin.mlp (aggFK m c fun i j => A (ix2 i j)) ((pK m c).ws1 L) ((pK m c).bs1 L) ((pK m c).ws2 L) ((pK m c).bs2 L) := by
  subst hx hw1 hb1 hw2 hb2
  refine Gin.mlp_congr ?_ (funext fun l => funext fun k => ?_) (funext fun k => ?_) (funext fun l => funext fun k => ?_) (funext fun k => ?_)
  · rw [hW main_arg0 (by decide), hW main_arg1 (by decide)]
    unfold aggFK
    rw [arr2_of]
  · rw [matOf_apply, hW main_arg6 (by decide)]; rfl
  · rw [rowOf_apply, hW main_arg7 (by decide)]; rfl
  · rw [matOf_apply, hW main_arg8 (by decide)]; rfl
  · rw [rowOf_apply, hW main_arg9 (by decide)]; rfl

-- Row `L` of the two per-layer tables is the layer's scale and shift.
theorem gam_of (L : Fin 4) {g : FVec Ideal S1x64 .f32}
    (hg : g = rowOf L (W (Proc.devRef .tc main_arg10) : FVec Ideal S4x64 .f32)) : (fun j => g (ix2 0 j)) = (pK m c).gam L :=
  funext fun j => by rw [hg, rowOf_apply, hW main_arg10 (by decide)]; rfl

theorem bet_of (L : Fin 4) {b : FVec Ideal S1x64 .f32}
    (hb : b = rowOf L (W (Proc.devRef .tc main_arg11) : FVec Ideal S4x64 .f32)) : (fun j => b (ix2 0 j)) = (pK m c).bet L :=
  funext fun j => by rw [hb, rowOf_apply, hW main_arg11 (by decide)]; rfl

end Cert.KernelIdeal.Val

end
-- ==== Proof.LibPlainDot.lean ====
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

variable {M K N : Nat}

theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

theorem sum_plain {α : Type} [AddCommMonoid α] (f : (⟨2, ![M, K]⟩ : Shape).Idx → (⟨2, ![K, N]⟩ : Shape).Idx → α)
    (i : Fin M) (j : Fin N) :
    ∑ q : (DotDims.plain M K N).contr.Idx,
        f ((DotDims.plain M K N).lhsIdx (ix2 i j) q) ((DotDims.plain M K N).rhsIdx (ix2 i j) q)
      = ∑ k : Fin K, f (ix2 i k) (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_0 _ _
      | ⟨1, _⟩ => exact (lhs_1 _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_0 _ _).trans hk
      | ⟨1, _⟩ => exact rhs_1 _ _)
  rw [el, er]

theorem matmul_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant (F := Ideal) ⟨2, ![M, N]⟩ .f32 0x00000000#32) (ix2 i j)
      = ∑ k : Fin K, l (ix2 i k) * r (ix2 k j) := by
  rw [Ideal.matmul_constant_zero_apply]
  exact sum_plain (fun a b => l a * r b) i j

theorem dotGeneral_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j)
      = ∑ k : Fin K, l (ix2 i k) * r (ix2 k j) := by
  rw [Ideal.dotGeneral_apply]
  exact sum_plain (fun a b => l a * r b) i j

end Idealize.ShloMosaic.PlainDot

end
-- ==== Proof.KStatsCore.lean ====
import proofs.«427228_j78975858638933_3_alg».proof.Proof.Gen.KernelIdeal.Frame
import proofs.«427228_j78975858638933_3_alg».proof.Proof.Spec
import proofs.«427228_j78975858638933_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)
open scoped BigOperators

namespace Stats

-- Row `i` of `y`, and zero past the last row: the summand of the running sums.
def rowN (y : Fin 100000 → Fin 64 → EReal) (j : Fin 64) (i : ℕ) : EReal := if h : i < 100000 then y ⟨i, h⟩ j else 0

-- A quantity that starts at the first block's sum and grows by the next block's sum at every step is the sum over all blocks so far.
theorem acc_blocks {N : ℕ} (g : ℕ → EReal) (a : ∀ n, n < N → EReal)
    (h0 : ∀ h, a 0 h = ∑ p ∈ Finset.range 10000, g p)
    (hs : ∀ n h h', a (n + 1) h = a n h' + ∑ p ∈ Finset.range 10000, g (10000 * (n + 1) + p)) :
    ∀ n h, a n h = ∑ i ∈ Finset.range (10000 * (n + 1)), g i
  | 0, h => h0 h
  | n + 1, h => by
    rw [hs n h (Nat.lt_of_succ_lt h), acc_blocks g a h0 hs n, Nat.mul_succ 10000 (n + 1), Finset.sum_range_add]

-- Ten blocks of 10000 rows partition the 100000 rows: an entry reset at point 0 and increased at every point by the sum of `g` over the point's block ends as the sum of `g` over all rows.
theorem acc_rows {N : ℕ} (hN : N = 10) (y : Fin 100000 → Fin 64 → EReal) (f : Fin N → Fin 10000 → Fin 64 → EReal)
    (hf : ∀ t p j, f t p j = rowN y j (10000 * t.val + p.val)) (g : EReal → EReal) (j : Fin 64) (a : ∀ n, n < N → EReal)
    (hA : ∀ t : Fin N, t.val % 10 = 0 → a t.val t.isLt = ∑ p, g (f t p j))
    (hB : ∀ (t : Fin N) h', ¬t.val % 10 = 0 → a t.val t.isLt = a (t.val - 1) h' + ∑ p, g (f t p j))
    (h9 : 9 < N) : a 9 h9 = ∑ i : Fin 100000, g (y i j) := by
  subst hN
  have hb : ∀ t : Fin 10, ∑ p, g (f t p j) = ∑ p ∈ Finset.range 10000, g (rowN y j (10000 * t.val + p)) := fun t => by
    rw [← Fin.sum_univ_eq_sum_range (fun p => g (rowN y j (10000 * t.val + p))) 10000]
    exact Finset.sum_congr rfl fun p _ => congrArg g (hf t p j)
  refine (acc_blocks (fun i => g (rowN y j i)) a (fun h => ?_) (fun n h h' => ?_) 9 h9).trans ?_
  · refine ((hA ⟨0, h⟩ rfl).trans (hb _)).trans ?_
    exact Finset.sum_congr rfl fun p _ => by rw [Nat.mul_zero, Nat.zero_add]
  · exact (hB ⟨n + 1, h⟩ h' (by dsimp only; omega)).trans (congrArg (a n h' + ·) (hb _))
  · rw [← Fin.sum_univ_eq_sum_range (fun i => g (rowN y j i)) 100000]
    exact Finset.sum_congr rfl fun i _ => congrArg g (dif_pos i.isLt)

-- A block at block index zero on every axis, of its array's own size, read off contents `f`, is `f`.
theorem read_block_zero (b : Ref sig .tc) (idx : Fin b.ty.shape.rank → ℕ) (h : ∀ a, idx a = 0) (f : b.ty.Contents (Elt Ideal)) :
    ((Memref.whole b).access (Rect.unit (fun a => idx a * b.ty.shape.size a) b.ty.shape.size
      fun a => by rw [h a, Nat.zero_mul, Nat.zero_add]) : View sig .tc _ _ _).read (Elt Ideal) f = f :=
  Memref.read_access_unit_zero _ b (funext fun a => by rw [h a, Nat.zero_mul]) _ f

-- Stores read back over any contents: when the last store writes the whole block, what is read is that store's value.
theorem read_writes_whole {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ fun y => ⟨_, .head _, View.mem_set_unit_zero h inb y⟩).trans
    (View.canon_cons_unit_zero h inb w L)

theorem hz2 : (![0, 0] : Fin 2 → Nat) = fun _ => 0 := funext fun a => by fin_cases a <;> rfl

theorem matmul_apply {φ₁ φ₂ : FTy} (l : FVec Ideal S10000x64 φ₁) (r : FVec Ideal S64x64 φ₂) (p : Fin 10000) (j : Fin 64) :
    matmul dot_S10000x64_S64x64_S10000x64_1_0_0_1_n_n none l r (constant (F := Ideal) S10000x64 .f32 0x00000000#32) (ix2 p j)
      = ∑ k : Fin 64, l (ix2 p k) * r (ix2 k j) :=
  PlainDot.matmul_zero_apply none l r p j

-- The reduction over the rows of a `[10000, 64]` array, at column `j`, visits the entries `(p, j)`.
theorem lift_rows (h : S10000x64.Reduces [0] S64) (j : Fin 64) (p : Fin 10000) : h.lift (ix1 j) p = ix2 p j :=
  funext fun a => Fin.ext (by
    match a with
    | ⟨0, _⟩ => rfl
    | ⟨1, _⟩ => rfl)

-- The sum, from zero, of a block over its rows, at column `j`.
theorem colsum_apply (v : FVec Ideal S10000x64 .f32) (r : S10000x64.Reduces [0] S64) (hφ : FKind.Formats .f32)
    (hacc : (0x00000000#32 : BitVec 32) = FKind.add.neutral .f32 hφ) (j : Fin 64) :
    multiReduction .add [0] S64 v 0x00000000#32 r hφ hacc (ix1 j) = ∑ p : Fin 10000, v (ix2 p j) :=
  (Ideal.multiReduction_add_single v 0x00000000#32 r hφ hacc (ix1 j)).trans
    (Finset.sum_congr rfl fun p _ => congrArg v (lift_rows r j p))

section Mlp

variable (x0 : FVec Ideal S10000x64 .f32) (x1 : FVec Ideal S64x64 .f32) (x2 : FVec Ideal S1x64 .f32)
  (x3 : FVec Ideal S64x64 .f32) (x4 xo : FVec Ideal S1x64 .f32) (p : Fin 10000) (j : Fin 64)

-- The perceptron of one block of 10000 rows at row `p`, column `j`: features `x0`, weights `x1`, `x3`, bias rows `x2`, `x4`.
def blockMlp : EReal :=
  (∑ k : Fin 64, max ((∑ l : Fin 64, x0 (ix2 p l) * x1 (ix2 l k)) + x2 (ix2 0 k)) 0 * x3 (ix2 k j)) + x4 (ix2 0 j)

theorem pay4_apply : k2_pay4 (F := Ideal) x0 x1 x2 x3 x4 (ix2 p j) = blockMlp x0 x1 x2 x3 x4 p j := by
  unfold k2_pay4 blockMlp
  simp only [addf_apply, matmul_apply, truncf_apply, shapeCast_self, maximumf_apply, broadcast_apply,
    broadcastTo_1b_ab_apply, Scalar.ofBits, Ideal.ofBits_def, Ideal.ofBits_zero_f32]

theorem pay5_apply :
    k2_pay5 (F := Ideal) x0 x1 x2 x3 x4 xo (ix2 0 j) = xo (ix2 0 j) + ∑ p : Fin 10000, blockMlp x0 x1 x2 x3 x4 p j := by
  unfold k2_pay5
  simp only [addf_apply, shapeCast_self, shapeCast_a_1a_apply]
  refine congrArg (xo (ix2 0 j) + ·) ((colsum_apply _ _ _ _ j).trans ?_)
  exact Finset.sum_congr rfl fun p _ => pay4_apply x0 x1 x2 x3 x4 p j

theorem pay1_apply : k2_pay1 (F := Ideal) (k2_pay6 xo) (k2_pay7 x0 x1 x2 x3 x4) (ix2 0 j)
      = xo (ix2 0 j) + ∑ p : Fin 10000, blockMlp x0 x1 x2 x3 x4 p j * blockMlp x0 x1 x2 x3 x4 p j := by
  unfold k2_pay1 k2_pay6 k2_pay7
  simp only [addf_apply, shapeCast_self, shapeCast_a_1a_apply]
  refine congrArg (xo (ix2 0 j) + ·) ((colsum_apply _ _ _ _ j).trans ?_)
  exact Finset.sum_congr rfl fun p _ => by rw [mulf_apply, pay4_apply]

theorem pay2_apply : k2_pay2 (F := Ideal) (ix2 0 j) = 0 := by
  unfold k2_pay2
  simp only [broadcast_apply, Scalar.ofBits, Ideal.ofBits_def, Ideal.ofBits_zero_f32]
theorem pay3_apply : k2_pay3 (F := Ideal) (ix2 0 j) = 0 := by
  unfold k2_pay3
  simp only [broadcast_apply, Scalar.ofBits, Ideal.ofBits_def, Ideal.ofBits_zero_f32]

end Mlp

-- Any body that adds to its two rows a block's column sums of `q` and of `q * q`, after a reset at point 0, leaves the column sums over all rows: block `t`, row `p` is row `10000 t + p` of `y`.
theorem rows_stats {N : ℕ} (hN : N = 10) {β : Type} (y : Fin 100000 → Fin 64 → EReal)
    (out : ∀ n, n < N → FVec Ideal S1x64 .f32 × FVec Ideal S1x64 .f32) (b : Fin N → β) (q : β → Fin 10000 → Fin 64 → EReal)
    (P5 P1 : β → FVec Ideal S1x64 .f32 → FVec Ideal S1x64 .f32) (Z5 Z6 : FVec Ideal S1x64 .f32)
    (hP5 : ∀ x xo j, P5 x xo (ix2 0 j) = xo (ix2 0 j) + ∑ p, q x p j)
    (hP1 : ∀ x xo j, P1 x xo (ix2 0 j) = xo (ix2 0 j) + ∑ p, q x p j * q x p j)
    (hZ5 : ∀ j, Z5 (ix2 0 j) = 0) (hZ6 : ∀ j, Z6 (ix2 0 j) = 0)
    (hq : ∀ t p j, q (b t) p j = rowN y j (10000 * t.val + p.val))
    (hA : ∀ t : Fin N, t.val % 10 = 0 → out t.val t.isLt = (P5 (b t) Z5, P1 (b t) Z6))
    (hB : ∀ (t : Fin N) h', ¬t.val % 10 = 0 → out t.val t.isLt = (P5 (b t) (out (t.val - 1) h').1, P1 (b t) (out (t.val - 1) h').2))
    (h9 : 9 < N) (j : Fin 64) :
    (out 9 h9).1 (ix2 0 j) = Gin.colSum y j ∧ (out 9 h9).2 (ix2 0 j) = Gin.colSumSq y j :=
  ⟨acc_rows hN y (fun t => q (b t)) hq (fun z => z) j (fun n h => (out n h).1 (ix2 0 j))
      (fun t ht => (congrFun (congrArg Prod.fst (hA t ht)) _).trans ((hP5 _ _ j).trans (by rw [hZ5, zero_add])))
      (fun t h' ht => (congrFun (congrArg Prod.fst (hB t h' ht)) _).trans (hP5 _ _ j)) h9,
    acc_rows hN y (fun t => q (b t)) hq (fun z => z * z) j (fun n h => (out n h).2 (ix2 0 j))
      (fun t ht => (congrFun (congrArg Prod.snd (hA t ht)) _).trans ((hP1 _ _ j).trans (by rw [hZ6, zero_add])))
      (fun t h' ht => (congrFun (congrArg Prod.snd (hB t h' ht)) _).trans (hP1 _ _ j)) h9⟩

-- Regions 2, 4 and 6 run one body, the perceptron of a block with two 64 x 64 products.
theorem mlp_stats {N : ℕ} (hN : N = 10) (out : ∀ n, n < N → FVec Ideal S1x64 .f32 × FVec Ideal S1x64 .f32)
    (b0 : Fin N → FVec Ideal S10000x64 .f32) (X : FVec Ideal S100000x64 .f32) (W1 W2 : FVec Ideal S64x64 .f32)
    (B1 B2 : FVec Ideal S1x64 .f32)
    (h0 : ∀ t p l h, b0 t (ix2 p l) = X (ix2 ⟨10000 * t.val + p.val, h⟩ l))
    (hA : ∀ t : Fin N, t.val % 10 = 0 → out t.val t.isLt
      = (k2_pay5 (b0 t) W1 B1 W2 B2 k2_pay2, k2_pay1 (k2_pay6 k2_pay3) (k2_pay7 (b0 t) W1 B1 W2 B2)))
    (hB : ∀ (t : Fin N) h', ¬t.val % 10 = 0 → out t.val t.isLt
      = (k2_pay5 (b0 t) W1 B1 W2 B2 (out (t.val - 1) h').1, k2_pay1 (k2_pay6 (out (t.val - 1) h').2) (k2_pay7 (b0 t) W1 B1 W2 B2)))
    (h9 : 9 < N) (j : Fin 64) :
    (out 9 h9).1 (ix2 0 j) = Gin.colSum (Gin.mlp (fun i l => X (ix2 i l)) (fun l k => W1 (ix2 l k)) (fun k => B1 (ix2 0 k))
        (fun k j => W2 (ix2 k j)) (fun j => B2 (ix2 0 j))) j
    ∧ (out 9 h9).2 (ix2 0 j) = Gin.colSumSq (Gin.mlp (fun i l => X (ix2 i l)) (fun l k => W1 (ix2 l k)) (fun k => B1 (ix2 0 k))
        (fun k j => W2 (ix2 k j)) (fun j => B2 (ix2 0 j))) j :=
  rows_stats hN _ out b0 (fun x => blockMlp x W1 B1 W2 B2) (fun x xo => k2_pay5 x W1 B1 W2 B2 xo)
    (fun x xo => k2_pay1 (k2_pay6 xo) (k2_pay7 x W1 B1 W2 B2)) k2_pay2 k2_pay3
    (fun x xo j => pay5_apply x W1 B1 W2 B2 xo j) (fun x xo j => pay1_apply x W1 B1 W2 B2 xo j) pay2_apply pay3_apply
    (fun t p j => by
      have hlt : 10000 * t.val + p.val < 100000 := by have := t.isLt; have := p.isLt; omega
      unfold rowN blockMlp
      rw [dif_pos hlt]
      simp only [h0 t p _ hlt]
      rfl) hA hB h9 j

end Stats

end Cert.KernelIdeal.Val

end
-- ==== Proof.LibColumn.lean ====
import Idealize.ShloMosaic.Lib.Pipeline.Value
import Idealize.ShloMosaic.Lib.ValueIdx
import Idealize.ShloMosaic.PureOps.Ideal

noncomputable section

namespace Idealize.ShloMosaic.Column

open Idealize.ShloMosaic Idealize.ShloMosaic.ValueIdx

variable {α : Type}

-- A column broadcast along its unit axis repeats the column's entry in every position of the row.
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.Column

end
-- ==== Proof.KStats0.lean ====
import proofs.«427228_j78975858638933_3_alg».proof.Proof.Gen.KernelIdeal.Frame
import proofs.«427228_j78975858638933_3_alg».proof.Proof.Spec
import proofs.«427228_j78975858638933_3_alg».proof.Proof.LibPlainDot
import proofs.«427228_j78975858638933_3_alg».proof.Proof.KStatsCore
import proofs.«427228_j78975858638933_3_alg».proof.Proof.LibColumn
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)
open scoped BigOperators

open Stats

variable (V : (c : Dev nD) → (b : Ref sig .tc) → Buf (Elt Ideal) ((c : Thread nD τ).loc b))

abbrev y0 (c : Dev nD) : Fin 100000 → Fin 64 → EReal :=
  Gin.mlp0 (fun i => (V c main_v15 : FVec Ideal S100000x1 .f32) (ix2 i 0))
    (fun k => (V c main_arg2 : FVec Ideal S1x64 .f32) (ix2 0 k))
    (fun k => (V c main_v20 : FVec Ideal S1x64 .f32) (ix2 0 k))
    (fun k j => (V c main_arg4 : FVec Ideal S64x64 .f32) (ix2 k j))
    (fun j => (V c main_v21 : FVec Ideal S1x64 .f32) (ix2 0 j))

section Pieces

open Idealize.ShloMosaic.Tactic

variable {F : FTy → Type} [FloatOps F] (c : Dev nD) (i : grid0.Coords)
  (a1 : Memref sig .tc .vmem S10000x1 .f32) (h1 : a1.IsWhole) (a2 : Memref sig .tc .vmem S1x64 .f32) (h2 : a2.IsWhole)
  (a3 : Memref sig .tc .vmem S1x64 .f32) (h3 : a3.IsWhole) (a4 : Memref sig .tc .vmem S64x64 .f32) (h4 : a4.IsWhole)
  (a5 : Memref sig .tc .vmem S1x64 .f32) (h5 : a5.IsWhole) (a6 : Memref sig .tc .vmem S1x64 .f32) (h6 : a6.IsWhole)
  (a7 : Memref sig .tc .vmem S1x64 .f32) (h7 : a7.IsWhole)
  (x0 : Vec F S10000x1 .f32) (x1 : Vec F S1x64 .f32) (x2 : Vec F S1x64 .f32) (x3 : Vec F S64x64 .f32) (x4 : Vec F S1x64 .f32)

theorem s0_out_B_5 (hc : ¬cond0_0 i) (xo5 xo6 : Vec F S1x64 .f32) :
    out0_B_5 c i a1 h1 a2 h2 a3 h3 a4 h4 a5 h5 a6 h6 a7 h7 hc x0 x1 x2 x3 x4 xo5 xo6 = k0_pay5 x0 x1 x2 x3 x4 xo5 := by
  unfold out0_B_5 kernelRun0_B
  dsimp only
  sl_unfold_words
  rw [read_writes_whole _ _ hz2]
  simp only [View.readAt_eq_ld, h1.read_unread, h2.read_unread, h3.read_unread, h4.read_unread, h5.read_unread,
    h6.read_unread, h7.read_unread, View.ld_unit_zero (S := S10000x1) hz2, View.ld_unit_zero (S := S1x64) hz2,
    View.ld_unit_zero (S := S64x64) hz2]

theorem s0_out_B_6 (hc : ¬cond0_0 i) (xo5 xo6 : Vec F S1x64 .f32) :
    out0_B_6 c i a1 h1 a2 h2 a3 h3 a4 h4 a5 h5 a6 h6 a7 h7 hc x0 x1 x2 x3 x4 xo5 xo6
      = k0_pay1 (k0_pay6 xo6) (k0_pay7 x0 x1 x2 x3 x4) := by
  unfold out0_B_6 kernelRun0_B
  dsimp only
  sl_unfold_words
  rw [read_writes_whole _ _ hz2]
  simp only [View.readAt_eq_ld, h1.read_unread, h2.read_unread, h3.read_unread, h4.read_unread, h5.read_unread,
    h6.read_unread, h7.read_unread, View.ld_unit_zero (S := S10000x1) hz2, View.ld_unit_zero (S := S1x64) hz2,
    View.ld_unit_zero (S := S64x64) hz2]

theorem s0_out_A_5 (hc : cond0_0 i) :
    out0_A_5 c i a1 h1 a2 h2 a3 h3 a4 h4 a5 h5 a6 h6 a7 h7 hc x0 x1 x2 x3 x4 = k0_pay5 x0 x1 x2 x3 x4 (k0_pay2 (F := F)) := by
  unfold out0_A_5 kernelRun0_A
  dsimp only
  sl_unfold_words
  rw [read_writes_whole _ _ hz2]
  simp only [View.readAt_eq_ld, h1.read_unread, h2.read_unread, h3.read_unread, h4.read_unread, h5.read_unread,
    View.ld_unit_zero (S := S10000x1) hz2, View.ld_unit_zero (S := S1x64) hz2, View.ld_unit_zero (S := S64x64) hz2,
    View.readCov_unit_zero (S := S1x64) _ hz2]

theorem s0_out_A_6 (hc : cond0_0 i) :
    out0_A_6 c i a1 h1 a2 h2 a3 h3 a4 h4 a5 h5 a6 h6 a7 h7 hc x0 x1 x2 x3 x4
      = k0_pay1 (k0_pay6 (k0_pay3 (F := F))) (k0_pay7 x0 x1 x2 x3 x4) := by
  unfold out0_A_6 kernelRun0_A
  dsimp only
  sl_unfold_words
  rw [read_writes_whole _ _ hz2]
  simp only [View.readAt_eq_ld, h1.read_unread, h2.read_unread, h3.read_unread, h4.read_unread, h5.read_unread,
    View.ld_unit_zero (S := S10000x1) hz2, View.ld_unit_zero (S := S1x64) hz2, View.ld_unit_zero (S := S64x64) hz2,
    View.readCov_unit_zero (S := S1x64) _ hz2]

end Pieces

section Payloads

variable (x0 : FVec Ideal S10000x1 .f32) (x1 x2 : FVec Ideal S1x64 .f32) (x3 : FVec Ideal S64x64 .f32)
  (x4 xo : FVec Ideal S1x64 .f32) (p : Fin 10000) (j : Fin 64)

-- Row `p` of the block's perceptron depends on row `p` of the feature column only: an outer product, then a 64 x 64 product.
theorem s0_pay4_apply : k0_pay4 (F := Ideal) x0 x1 x2 x3 x4 (ix2 p j)
      = (∑ k : Fin 64, max (x0 (ix2 p 0) * x1 (ix2 0 k) + x2 (ix2 0 k)) 0 * x3 (ix2 k j)) + x4 (ix2 0 j) := by
  unfold k0_pay4
  simp only [shapeCast_self]
  refine (addf_apply _ _ _).trans ?_
  refine congrArg₂ (· + ·) ?_ (broadcastTo_1b_ab_apply _ _ p j)
  refine (PlainDot.matmul_zero_apply (M := 10000) (K := 64) (N := 64) none _ _ p j).trans ?_
  refine Finset.sum_congr rfl fun k _ => ?_
  refine congrArg₂ (· * ·) ?_ rfl
  show max (broadcastTo S10000x64 x0 _ (ix2 p k) * broadcastTo S10000x64 x1 _ (ix2 p k)
    + broadcastTo S10000x64 x2 _ (ix2 p k)) (Ideal.ofBits .f32 0x00000000#32) = _
  rw [Column.broadcastTo_a1_ab_apply, broadcastTo_1b_ab_apply, broadcastTo_1b_ab_apply, Ideal.ofBits_zero_f32]

theorem s0_pay5_apply : k0_pay5 (F := Ideal) x0 x1 x2 x3 x4 xo (ix2 0 j)
      = xo (ix2 0 j) + ∑ p : Fin 10000, k0_pay4 (F := Ideal) x0 x1 x2 x3 x4 (ix2 p j) := by
  unfold k0_pay5
  dsimp only
  simp only [shapeCast_self]
  refine (addf_apply _ _ _).trans ?_
  refine congrArg₂ (· + ·) rfl ?_
  exact (shapeCast_a_1a_apply _ _ (0 : Fin 1) j).trans (colsum_apply _ _ _ _ j)

theorem s0_pay1_apply : k0_pay1 (F := Ideal) (k0_pay6 xo) (k0_pay7 x0 x1 x2 x3 x4) (ix2 0 j)
      = xo (ix2 0 j) + ∑ p : Fin 10000, k0_pay4 (F := Ideal) x0 x1 x2 x3 x4 (ix2 p j) * k0_pay4 (F := Ideal) x0 x1 x2 x3 x4 (ix2 p j) := by
  unfold k0_pay1 k0_pay6 k0_pay7
  refine (addf_apply _ _ _).trans ?_
  refine congrArg₂ (· + ·) (congrFun (shapeCast_self _ _) _) ?_
  refine (shapeCast_a_1a_apply _ _ (0 : Fin 1) j).trans ?_
  refine (colsum_apply _ _ _ _ j).trans ?_
  exact Finset.sum_congr rfl fun p _ => mulf_apply _ _ _

theorem s0_pay2_apply : k0_pay2 (F := Ideal) (ix2 0 j) = 0 := by
  unfold k0_pay2
  exact Ideal.ofBits_zero_f32
theorem s0_pay3_apply : k0_pay3 (F := Ideal) (ix2 0 j) = 0 := by
  unfold k0_pay3
  exact Ideal.ofBits_zero_f32

end Payloads

theorem s0_idx : ∀ t : Fin grid0.N, (win0_0.index t 0 = t.val ∧ win0_0.index t 1 = 0) ∧ (∀ a, win0_1.index t a = 0)
      ∧ (∀ a, win0_2.index t a = 0) ∧ (∀ a, win0_3.index t a = 0) ∧ (∀ a, win0_4.index t a = 0)
      ∧ (∀ a, win0_5.index t a = 0) ∧ (∀ a, win0_6.index t a = 0) := by decide +kernel

-- Row `p` of block `t` of the feature column is row `10000 t + p` of the column.
theorem s0_b0 (c : Dev nD) (t : Fin cfg0.N) (p : Fin 10000) (h : 10000 * t.val + p.val < 100000) :
    (iblk0 V c 0 t : FVec Ideal S10000x1 .f32) (ix2 p 0) = (V c main_v15 : FVec Ideal S100000x1 .f32) (ix2 ⟨10000 * t.val + p.val, h⟩ 0) := by
  have hi := (s0_idx t).1
  unfold iblk0
  rw [View.read_apply]
  show V c main_v15 _ = V c main_v15 _
  congr 1
  funext a
  apply Fin.ext
  match a with
  | ⟨0, _⟩ => show win0_0.index t 0 * 10000 + 1 * p.val = 10000 * t.val + p.val; rw [hi.1]; omega
  | ⟨1, _⟩ => show win0_0.index t 1 * 1 + 1 * 0 = 0; rw [hi.2]

theorem s0_b1 (c : Dev nD) (t : Fin cfg0.N) : iblk0 V c 1 t = V c main_arg2 :=
  read_block_zero main_arg2 (win0_1.index t) (s0_idx t).2.1 (V c main_arg2)
theorem s0_b2 (c : Dev nD) (t : Fin cfg0.N) : iblk0 V c 2 t = V c main_v20 :=
  read_block_zero main_v20 (win0_2.index t) (s0_idx t).2.2.1 (V c main_v20)
theorem s0_b3 (c : Dev nD) (t : Fin cfg0.N) : iblk0 V c 3 t = V c main_arg4 :=
  read_block_zero main_arg4 (win0_3.index t) (s0_idx t).2.2.2.1 (V c main_arg4)
theorem s0_b4 (c : Dev nD) (t : Fin cfg0.N) : iblk0 V c 4 t = V c main_v21 :=
  read_block_zero main_v21 (win0_4.index t) (s0_idx t).2.2.2.2.1 (V c main_v21)

theorem s0_last_lt : 9 < cfg0.N := by rw [show cfg0.N = 10 from N_0]; decide

theorem s0_rows (c : Dev nD) (j : Fin 64) :
    (outsAt0 V c 9 s0_last_lt).1 (ix2 0 j) = Gin.colSum (y0 V c) j
    ∧ (outsAt0 V c 9 s0_last_lt).2 (ix2 0 j) = Gin.colSumSq (y0 V c) j :=
  rows_stats N_0 _ (outsAt0 V c) (fun t => (iblk0 V c 0 t : FVec Ideal S10000x1 .f32))
    (fun x p j => k0_pay4 (F := Ideal) x (V c main_arg2) (V c main_v20) (V c main_arg4) (V c main_v21) (ix2 p j))
    (fun x xo => k0_pay5 x (V c main_arg2) (V c main_v20) (V c main_arg4) (V c main_v21) xo)
    (fun x xo => k0_pay1 (k0_pay6 xo) (k0_pay7 x (V c main_arg2) (V c main_v20) (V c main_arg4) (V c main_v21))) k0_pay2 k0_pay3
    (fun x xo j => s0_pay5_apply x _ _ _ _ xo j) (fun x xo j => s0_pay1_apply x _ _ _ _ xo j) s0_pay2_apply s0_pay3_apply
    (fun t p j => by
      have hN := N_0
      have hlt : 10000 * t.val + p.val < 100000 := by have := t.isLt; have := p.isLt; omega
      refine (s0_pay4_apply ..).trans ?_
      unfold rowN
      rw [dif_pos hlt, s0_b0 V c t p hlt]
      rfl)
    (fun t h0 => by rw [outsAt0_A V c t h0, s0_out_A_5, s0_out_A_6, s0_b1, s0_b2, s0_b3, s0_b4])
    (fun t h' h0 => by rw [outsAt0_B V c t h0, s0_out_B_5, s0_out_B_6, s0_b1, s0_b2, s0_b3, s0_b4])
    s0_last_lt j

-- The last point's block is the whole `[1, 64]` array, so the array ends as the row that point left.
theorem s0_final_5 (c : Dev nD) : (dat0 V c).arrAt 5 cfg0.N = (outsAt0 V c 9 s0_last_lt).1 :=
  (dat0 V c).arrAt_eq_of_cover 5 (outsAt0 V c 9 s0_last_lt).1
    (fun t hf => by
      have hN : cfg0.N = 10 := N_0
      obtain rfl : t = t0_9 := Fin.ext (by have := (flush0_5 t).mp hf; have := t.isLt; show t.val = 9; omega)
      show (cfg0.win 5).cut (grid0.coords t0_9) ((dat0 V c).after 5 t0_9) = _
      rw [after0_5]
      exact (read_block_zero main_v24_0 (win0_5.index t0_9) (s0_idx t0_9).2.2.2.2.2.1 _).symm)
    fun i => ⟨t0_9, (flush0_5 t0_9).mpr rfl, by
      show i ∈ ((View.whole main_v24_0).slice (win0_5.rect t0_9)).set
      rw [View.set_slice_whole]
      exact View.mem_set_unit_zero (funext fun a => by rw [(s0_idx t0_9).2.2.2.2.2.1 a, Nat.zero_mul]) _ i⟩

theorem s0_final_6 (c : Dev nD) : (dat0 V c).arrAt 6 cfg0.N = (outsAt0 V c 9 s0_last_lt).2 :=
  (dat0 V c).arrAt_eq_of_cover 6 (outsAt0 V c 9 s0_last_lt).2
    (fun t hf => by
      have hN : cfg0.N = 10 := N_0
      obtain rfl : t = t0_9 := Fin.ext (by have := (flush0_6 t).mp hf; have := t.isLt; show t.val = 9; omega)
      show (cfg0.win 6).cut (grid0.coords t0_9) ((dat0 V c).after 6 t0_9) = _
      rw [after0_6]
      exact (read_block_zero main_v24_1 (win0_6.index t0_9) (s0_idx t0_9).2.2.2.2.2.2 _).symm)
    fun i => ⟨t0_9, (flush0_6 t0_9).mpr rfl, by
      show i ∈ ((View.whole main_v24_1).slice (win0_6.rect t0_9)).set
      rw [View.set_slice_whole]
      exact View.mem_set_unit_zero (funext fun a => by rw [(s0_idx t0_9).2.2.2.2.2.2 a, Nat.zero_mul]) _ i⟩

theorem stats0_sum (c : Dev nD) (j : Fin 64) :
    ((dat0 (F := Ideal) V c).arrAt 5 cfg0.N : FVec Ideal S1x64 .f32) (ix2 0 j) = Gin.colSum (y0 V c) j :=
  (congrFun (s0_final_5 V c) (ix2 0 j)).trans (s0_rows V c j).1

theorem stats0_sumsq (c : Dev nD) (j : Fin 64) :
    ((dat0 (F := Ideal) V c).arrAt 6 cfg0.N : FVec Ideal S1x64 .f32) (ix2 0 j) = Gin.colSumSq (y0 V c) j :=
  (congrFun (s0_final_6 V c) (ix2 0 j)).trans (s0_rows V c j).2

end Cert.KernelIdeal.Val

end
-- ==== Proof.KApply.lean ====
import proofs.«427228_j78975858638933_3_alg».proof.Proof.Gen.KernelIdeal.Frame
import proofs.«427228_j78975858638933_3_alg».proof.Proof.Spec
import proofs.«427228_j78975858638933_3_alg».proof.Proof.LibPlainDot
import proofs.«427228_j78975858638933_3_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)
open scoped BigOperators

namespace Apply

theorem zeroOff : (![0, 0] : Fin 2 → Nat) = fun _ => 0 := funext fun a => by fin_cases a <;> rfl

theorem mulOff (s : Fin 2 → Nat) : (fun a => (![0, 0] : Fin 2 → Nat) a * s a) = fun _ => 0 :=
  funext fun a => by fin_cases a <;> exact Nat.zero_mul _

theorem rsqrt_at {s : Shape} {φ : FTy} (a : FVec Ideal s φ) (i : s.Idx) : rsqrt a i = Ideal.rsqrt (a i) := rfl

theorem dot_plain : dot_S10000x64_S64x64_S10000x64_1_0_0_1_n_n = DotDims.plain 10000 64 64 := rfl

-- Entry (p, l) of the k-th block of n rows is entry (k n + p, l) of the array.
theorem emb_rows {R n m k : ℕ} {idx : Fin 2 → ℕ} (h : idx = ![k, 0]) (inb) (p : Fin n) (l : Fin m) (r : Fin R)
    (hr : r.val = k * n + p.val) :
    (Rect.unit (s := ⟨2, ![R, m]⟩) (fun a => idx a * ![n, m] a) ![n, m] inb).emb (ix2 p l) = ix2 r l := by
  subst h
  exact Shape.idx_ext₂ (by rw [Rect.emb_apply]; show k * n + 1 * p.val = r.val; omega)
    (by rw [Rect.emb_apply]; show 0 * m + 1 * l.val = l.val; omega)

-- The N blocks of n rows tile the N n rows: row r lies in block r / n.
theorem cover_rows {N n m : ℕ} (hn : 0 < n) {idx : Fin N → Fin 2 → ℕ} (h : ∀ t, idx t = ![t.val, 0])
    (i : Shape.Idx ⟨2, ![n * N, m]⟩) : ∃ t : Fin N, ∀ inb, i ∈ (Rect.unit (s := ⟨2, ![n * N, m]⟩) (fun a => idx t a * ![n, m] a) ![n, m] inb).set := by
  refine ⟨⟨(i 0).val / n, Nat.div_lt_of_lt_mul (i 0).isLt⟩, fun inb => ?_⟩
  rw [Rect.mem_set_unit, h]
  have h1 : (i 1).val < m := (i 1).isLt
  exact Fin.forall_fin_two.2 ⟨⟨Nat.div_mul_le_self _ _, Nat.lt_div_mul_add hn⟩,
    by show 0 * m ≤ (i 1).val ∧ (i 1).val < 0 * m + m; omega⟩

-- In all four passes point t works on the t-th block of rows, of the features and of the output alike.
theorem index : ∀ t : Fin grid3.N, win3_0.index t = ![t.val, 0] := by decide +kernel

-- The array the pass leaves: the perceptron's value normalised by the mean and variance rows, scaled, shifted, clamped at zero.
abbrev outArr (y : Fin 100000 → Fin 64 → EReal) (m v g b : FVec Ideal S1x64 .f32) : FVec Ideal S100000x64 .f32 := fun idx =>
  Gin.applyK y (fun j => m (ix2 0 j)) (fun j => v (ix2 0 j)) (fun j => g (ix2 0 j)) (fun j => b (ix2 0 j)) (idx 0) (idx 1)

-- The body's stored entry (p, q) reads row p of the feature block only; the other eight operands enter whole.
theorem block_out {X : FVec Ideal S100000x64 .f32} {W1 W2 : FVec Ideal S64x64 .f32} {b1 b2 m v g b : FVec Ideal S1x64 .f32}
    {x0 : Vec Ideal S10000x64 .f32} {x1 x3 : Vec Ideal S64x64 .f32} {x2 x4 x5 x6 x7 x8 : Vec Ideal S1x64 .f32}
    {k : ℕ} (hk : k < 10) {i0 i9 : Fin 2 → ℕ} (e0 : i0 = ![k, 0]) (e9 : i9 = ![k, 0]) {inb0 inb9}
    (h0 : ∀ z, x0 z = X ((Rect.unit (s := S100000x64) (fun a => i0 a * S10000x64.size a) S10000x64.size inb0).emb z))
    (h1 : x1 = W1) (h2 : x2 = b1) (h3 : x3 = W2) (h4 : x4 = b2) (h5 : x5 = m) (h6 : x6 = v) (h7 : x7 = g) (h8 : x8 = b) (y : S10000x64.Idx) :
    out3_9 x0 x1 x2 x3 x4 x5 x6 x7 x8 y
      = outArr (Gin.mlp (fun i l => X (ix2 i l)) (fun l k => W1 (ix2 l k)) (fun k => b1 (ix2 0 k)) (fun k j => W2 (ix2 k j))
          (fun j => b2 (ix2 0 j))) m v g b ((Rect.unit (s := S100000x64) (fun a => i9 a * S10000x64.size a) S10000x64.size inb9).emb y) := by
  subst h1 h2 h3 h4 h5 h6 h7 h8
  obtain ⟨p, q, rfl⟩ : ∃ (p : Fin 10000) (q : Fin 64), y = ix2 p q := ⟨y 0, y 1, eq_ix2 y⟩
  have hr : k * 10000 + p.val < 100000 := by have := p.isLt; omega
  rw [emb_rows e9 _ p q ⟨_, hr⟩ rfl]
  unfold out3_9
  rw [View.canon_unit_zero zeroOff]
  simp only [View.ld_unit_zero (S := S10000x64) zeroOff, View.ld_unit_zero (S := S64x64) zeroOff, View.ld_unit_zero (S := S1x64) zeroOff]
  unfold k3_pay1 k3_pay2 k3_pay3
  simp only [maximumf_apply, addf_apply, subf_apply, mulf_apply, broadcast_apply, shapeCast_self, broadcastTo_1b_ab_apply,
    truncf_apply, rsqrt_at, dot_plain, PlainDot.matmul_zero_apply, Ideal.ofBits_def, Ideal.ofBits_zero_f32, h0, emb_rows e0 _ p _ ⟨_, hr⟩ rfl]
  rfl

-- The first layer's body: the same, its first product a scalar times a weight row.
theorem block_out1 {X : FVec Ideal S100000x1 .f32} {W2 : FVec Ideal S64x64 .f32} {W1 b1 b2 m v g b : FVec Ideal S1x64 .f32}
    {x0 : Vec Ideal S10000x1 .f32} {x3 : Vec Ideal S64x64 .f32} {x1 x2 x4 x5 x6 x7 x8 : Vec Ideal S1x64 .f32}
    {k : ℕ} (hk : k < 10) {i0 i9 : Fin 2 → ℕ} (e0 : i0 = ![k, 0]) (e9 : i9 = ![k, 0]) {inb0 inb9}
    (h0 : ∀ z, x0 z = X ((Rect.unit (s := S100000x1) (fun a => i0 a * S10000x1.size a) S10000x1.size inb0).emb z))
    (h1 : x1 = W1) (h2 : x2 = b1) (h3 : x3 = W2) (h4 : x4 = b2) (h5 : x5 = m) (h6 : x6 = v) (h7 : x7 = g) (h8 : x8 = b) (y : S10000x64.Idx) :
    out1_9 x0 x1 x2 x3 x4 x5 x6 x7 x8 y
      = outArr (Gin.mlp0 (fun i => X (ix2 i 0)) (fun k => W1 (ix2 0 k)) (fun k => b1 (ix2 0 k)) (fun k j => W2 (ix2 k j))
          (fun j => b2 (ix2 0 j))) m v g b ((Rect.unit (s := S100000x64) (fun a => i9 a * S10000x64.size a) S10000x64.size inb9).emb y) := by
  subst h1 h2 h3 h4 h5 h6 h7 h8
  obtain ⟨p, q, rfl⟩ : ∃ (p : Fin 10000) (q : Fin 64), y = ix2 p q := ⟨y 0, y 1, eq_ix2 y⟩
  have hr : k * 10000 + p.val < 100000 := by have := p.isLt; omega
  rw [emb_rows e9 _ p q ⟨_, hr⟩ rfl]
  unfold out1_9
  rw [View.canon_unit_zero zeroOff]
  simp only [View.ld_unit_zero (S := S10000x1) zeroOff, View.ld_unit_zero (S := S64x64) zeroOff, View.ld_unit_zero (S := S1x64) zeroOff]
  unfold k1_pay1 k1_pay2
  simp only [maximumf_apply, addf_apply, subf_apply, mulf_apply, broadcast_apply, shapeCast_self, broadcastTo_1b_ab_apply,
    Column.broadcastTo_a1_ab_apply, truncf_apply, rsqrt_at, dot_plain, PlainDot.matmul_zero_apply, Ideal.ofBits_def,
    Ideal.ofBits_zero_f32, h0, emb_rows e0 _ p _ ⟨_, hr⟩ rfl]
  rfl

end Apply

end Cert.KernelIdeal.Val

end
-- ==== Proof.KApply1.lean ====
import proofs.«427228_j78975858638933_3_alg».proof.Proof.KApply

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

abbrev y1 (c : Dev nD) : Fin 100000 → Fin 64 → EReal :=
  Gin.mlp0 (fun i => (V c main_v15 : FVec Ideal S100000x1 .f32) (ix2 i 0))
    (fun k => (V c main_arg2 : FVec Ideal S1x64 .f32) (ix2 0 k))
    (fun k => (V c main_v20 : FVec Ideal S1x64 .f32) (ix2 0 k))
    (fun k j => (V c main_arg4 : FVec Ideal S64x64 .f32) (ix2 k j))
    (fun j => (V c main_v21 : FVec Ideal S1x64 .f32) (ix2 0 j))

theorem apply1_out (c : Dev nD) (i : Fin 100000) (j : Fin 64) :
    ((dat1 (F := Ideal) V c).arrAt 9 cfg1.N : FVec Ideal S100000x64 .f32) (ix2 i j)
      = Gin.applyK (y1 V c) (fun j => (V c main_v26 : FVec Ideal S1x64 .f32) (ix2 0 j))
          (fun j => (V c main_v32 : FVec Ideal S1x64 .f32) (ix2 0 j)) (fun j => (V c main_v22 : FVec Ideal S1x64 .f32) (ix2 0 j))
          (fun j => (V c main_v23 : FVec Ideal S1x64 .f32) (ix2 0 j)) i j := by
  refine congrFun ((dat1 (F := Ideal) V c).arrAt_eq_of_cover 9 (Apply.outArr (y1 V c) _ _ _ _) (fun t _ => ?_)
    fun (i : S100000x64.Idx) => ?_) (ix2 i j)
  · show (cfg1.win 9).cut (grid1.coords t) ((dat1 (F := Ideal) V c).after 9 t) = _
    rw [after1_9]
    funext y
    refine Apply.block_out1 (lt_of_lt_of_eq t.isLt N_1) (Apply.index t) (Apply.index t) (X := V c main_v15) (fun _ => rfl)
      ?_ ?_ ?_ ?_ ?_ ?_ ?_ ?_ y <;> exact Memref.read_access_unit_zero _ _ (Apply.mulOff _) _ _
  · obtain ⟨t, ht⟩ := Apply.cover_rows (N := cfg1.N) (n := 10000) (by decide) Apply.index i
    refine ⟨t, flush1_9 t, ?_⟩
    show i ∈ ((View.whole main_v33).slice (win1_9.rect t)).set
    rw [View.set_slice_whole]
    exact ht _

end Cert.KernelIdeal.Val

end
-- ==== Proof.KChain0.lean ====
import proofs.«427228_j78975858638933_3_alg».proof.Proof.KLayer
import proofs.«427228_j78975858638933_3_alg».proof.Proof.KStats0
import proofs.«427228_j78975858638933_3_alg».proof.Proof.KApply1

noncomputable section

namespace Cert.KernelIdeal.Val

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

-- An input array of the statistics pass is unchanged through that pass and the stretch after it.
theorem W3_of_in (w : Fin cfg0.W) (hin : (cfg0.win w).isOut = false) (hk : Pipeline.arrRef spec0 w ∉ writes1) :
    W3 m ρ c (Proc.devRef .tc (Pipeline.arrRef spec0 w)) = W1 m ρ c (Proc.devRef .tc (Pipeline.arrRef spec0 w)) :=
  (host1_keep (W2 m ρ c) _ hk).trans
    ((W2_arr m ρ c w).trans (((dat0 (V1 m ρ) c).arrAt_in w hin cfg0.N).trans (A_eq0 (V1 m ρ) c w)))

-- The first perceptron on arrays equal to what the first stretch leaves.
theorem mlp0_of {x : FVec Ideal S100000x1 .f32} {w1 b1 b2 : FVec Ideal S1x64 .f32} {w2 : FVec Ideal S64x64 .f32}
    (hx : x = W1 m ρ c (Proc.devRef .tc main_v15)) (hw1 : w1 = W1 m ρ c (Proc.devRef .tc main_arg2))
    (hb1 : b1 = W1 m ρ c (Proc.devRef .tc main_v20)) (hw2 : w2 = W1 m ρ c (Proc.devRef .tc main_arg4))
    (hb2 : b2 = W1 m ρ c (Proc.devRef .tc main_v21)) :
    Gin.mlp0 (fun i => x (ix2 i 0)) (fun k => w1 (ix2 0 k)) (fun k => b1 (ix2 0 k)) (fun l k => w2 (ix2 l k)) (fun k => b2 (ix2 0 k))
      = Gin.mlp0 (x0K m c) (pK m c).w1_0 (pK m c).b1_0 (pK m c).w2_0 (pK m c).b2_0 := by
  subst hx hw1 hb1 hw2 hb2
  exact Gin.mlp0_congr (funext fun i => congrFun (host0_x (W0 m ρ c)) (ix2 i 0))
    (funext fun k => congrFun (host0_keep (W0 m ρ c) main_arg2 (by decide)) (ix2 0 k))
    (funext fun k => (congrFun (host0_b1 (W0 m ρ c)) (ix2 0 k)).trans (shapeCast_a_1a_apply _ _ 0 k))
    (funext fun l => funext fun k => congrFun (host0_keep (W0 m ρ c) main_arg4 (by decide)) (ix2 l k))
    (funext fun k => (congrFun (host0_b2 (W0 m ρ c)) (ix2 0 k)).trans (shapeCast_a_1a_apply _ _ 0 k))

theorem layer0_value (i : Fin 100000) (j : Fin 64) :
    (W4 m ρ c (Proc.devRef .tc main_v33) : FVec Ideal S100000x64 .f32) (ix2 i j)
      = Gin.layer0 Gin.normK (x0K m c) (pK m c) i j :=
  (congrFun (W4_arr m ρ c 9) (ix2 i j)).trans ((apply1_out (V3 m ρ) c i j).trans (congrFun (congrFun
    (normK_of (mlp0_of m ρ c rfl rfl rfl rfl rfl)
      (mlp0_of m ρ c (W3_of_in m ρ c 0 rfl (by decide)) (W3_of_in m ρ c 1 rfl (by decide)) (W3_of_in m ρ c 2 rfl (by decide))
        (W3_of_in m ρ c 3 rfl (by decide)) (W3_of_in m ρ c 4 rfl (by decide)))
      (fun j => (congrFun (W2_arr m ρ c 5) (ix2 0 j)).trans (stats0_sum (V1 m ρ) c j))
      (fun j => (congrFun (W2_arr m ρ c 6) (ix2 0 j)).trans (stats0_sumsq (V1 m ρ) c j))
      (host1_mean (W2 m ρ c)) (host1_var (W2 m ρ c))
      (gam_of m c (fun r _ => W0_arg m ρ c r) 0 ((host1_keep (W2 m ρ c) main_v22 (by decide)).trans
        ((W2_of_ne m ρ c main_v22 (by decide)).trans (host0_g _))))
      (bet_of m c (fun r _ => W0_arg m ρ c r) 0 ((host1_keep (W2 m ρ c) main_v23 (by decide)).trans
        ((W2_of_ne m ρ c main_v23 (by decide)).trans (host0_b _))))) i) j))

end Cert.KernelIdeal.Val

end
-- ==== Proof.KStats2.lean ====
import proofs.«427228_j78975858638933_3_alg».proof.Proof.Gen.KernelIdeal.Frame
import proofs.«427228_j78975858638933_3_alg».proof.Proof.Spec
import proofs.«427228_j78975858638933_3_alg».proof.Proof.LibPlainDot
import proofs.«427228_j78975858638933_3_alg».proof.Proof.KStatsCore
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)
open scoped BigOperators

open Stats

variable (V : (c : Dev nD) → (b : Ref sig .tc) → Buf (Elt Ideal) ((c : Thread nD τ).loc b))

abbrev y2 (c : Dev nD) : Fin 100000 → Fin 64 → EReal :=
  Gin.mlp (fun i l => (V c main_v44 : FVec Ideal S100000x64 .f32) (ix2 i l))
    (fun l k => (V c main_v46 : FVec Ideal S64x64 .f32) (ix2 l k))
    (fun k => (V c main_v57 : FVec Ideal S1x64 .f32) (ix2 0 k))
    (fun k j => (V c main_v50 : FVec Ideal S64x64 .f32) (ix2 k j))
    (fun j => (V c main_v58 : FVec Ideal S1x64 .f32) (ix2 0 j))

section Pieces

open Idealize.ShloMosaic.Tactic

variable {F : FTy → Type} [FloatOps F] (c : Dev nD) (i : grid2.Coords)
  (a1 : Memref sig .tc .vmem S10000x64 .f32) (h1 : a1.IsWhole) (a2 : Memref sig .tc .vmem S64x64 .f32) (h2 : a2.IsWhole)
  (a3 : Memref sig .tc .vmem S1x64 .f32) (h3 : a3.IsWhole) (a4 : Memref sig .tc .vmem S64x64 .f32) (h4 : a4.IsWhole)
  (a5 : Memref sig .tc .vmem S1x64 .f32) (h5 : a5.IsWhole) (a6 : Memref sig .tc .vmem S1x64 .f32) (h6 : a6.IsWhole)
  (a7 : Memref sig .tc .vmem S1x64 .f32) (h7 : a7.IsWhole)
  (x0 : Vec F S10000x64 .f32) (x1 : Vec F S64x64 .f32) (x2 : Vec F S1x64 .f32) (x3 : Vec F S64x64 .f32) (x4 : Vec F S1x64 .f32)

-- After the first point a row holds the one store's value: the row it held plus the block's column sums.
theorem s2_out_B_5 (hc : ¬cond2_0 i) (xo5 xo6 : Vec F S1x64 .f32) :
    out2_B_5 c i a1 h1 a2 h2 a3 h3 a4 h4 a5 h5 a6 h6 a7 h7 hc x0 x1 x2 x3 x4 xo5 xo6 = k2_pay5 x0 x1 x2 x3 x4 xo5 := by
  unfold out2_B_5 kernelRun2_B
  dsimp only
  rw [read_writes_whole _ _ hz2]
  simp only [View.readAt_eq_ld, h1.read_unread, h2.read_unread, h3.read_unread, h4.read_unread, h5.read_unread,
    h6.read_unread, h7.read_unread, View.ld_unit_zero (S := S10000x64) hz2, View.ld_unit_zero (S := S64x64) hz2,
    View.ld_unit_zero (S := S1x64) hz2]

theorem s2_out_B_6 (hc : ¬cond2_0 i) (xo5 xo6 : Vec F S1x64 .f32) :
    out2_B_6 c i a1 h1 a2 h2 a3 h3 a4 h4 a5 h5 a6 h6 a7 h7 hc x0 x1 x2 x3 x4 xo5 xo6
      = k2_pay1 (k2_pay6 xo6) (k2_pay7 x0 x1 x2 x3 x4) := by
  unfold out2_B_6 kernelRun2_B
  dsimp only
  sl_unfold_words
  rw [read_writes_whole _ _ hz2]
  simp only [View.readAt_eq_ld, h1.read_unread, h2.read_unread, h3.read_unread, h4.read_unread, h5.read_unread,
    h6.read_unread, h7.read_unread, View.ld_unit_zero (S := S10000x64) hz2, View.ld_unit_zero (S := S64x64) hz2,
    View.ld_unit_zero (S := S1x64) hz2]

-- The first point stores the zero row, reads it back and adds the block's column sums.
theorem s2_out_A_5 (hc : cond2_0 i) :
    out2_A_5 c i a1 h1 a2 h2 a3 h3 a4 h4 a5 h5 a6 h6 a7 h7 hc x0 x1 x2 x3 x4 = k2_pay5 x0 x1 x2 x3 x4 k2_pay2 := by
  unfold out2_A_5 kernelRun2_A
  dsimp only
  sl_unfold_words
  rw [read_writes_whole _ _ hz2, View.readCov_unit_zero (S := S1x64) _ hz2]
  simp only [View.readAt_eq_ld, h1.read_unread, h2.read_unread, h3.read_unread, h4.read_unread, h5.read_unread,
    View.ld_unit_zero (S := S10000x64) hz2, View.ld_unit_zero (S := S64x64) hz2, View.ld_unit_zero (S := S1x64) hz2]

theorem s2_out_A_6 (hc : cond2_0 i) :
    out2_A_6 c i a1 h1 a2 h2 a3 h3 a4 h4 a5 h5 a6 h6 a7 h7 hc x0 x1 x2 x3 x4
      = k2_pay1 (k2_pay6 k2_pay3) (k2_pay7 x0 x1 x2 x3 x4) := by
  unfold out2_A_6 kernelRun2_A
  dsimp only
  sl_unfold_words
  rw [read_writes_whole _ _ hz2, View.readCov_unit_zero (S := S1x64) _ hz2]
  simp only [View.readAt_eq_ld, h1.read_unread, h2.read_unread, h3.read_unread, h4.read_unread, h5.read_unread,
    View.ld_unit_zero (S := S10000x64) hz2, View.ld_unit_zero (S := S64x64) hz2, View.ld_unit_zero (S := S1x64) hz2]

end Pieces

theorem s2_idx : ∀ t : Fin grid2.N, (win2_0.index t 0 = t.val ∧ win2_0.index t 1 = 0) ∧ (∀ a, win2_1.index t a = 0)
      ∧ (∀ a, win2_2.index t a = 0) ∧ (∀ a, win2_3.index t a = 0) ∧ (∀ a, win2_4.index t a = 0)
      ∧ (∀ a, win2_5.index t a = 0) ∧ (∀ a, win2_6.index t a = 0) := by decide +kernel

-- Row `p` of the feature block at point `t` is row `10000 t + p` of the feature array.
theorem s2_b0 (c : Dev nD) (t : Fin cfg2.N) (p : Fin 10000) (l : Fin 64) (h : 10000 * t.val + p.val < 100000) :
    (iblk2 V c 0 t : FVec Ideal S10000x64 .f32) (ix2 p l) = (V c main_v44 : FVec Ideal S100000x64 .f32) (ix2 ⟨10000 * t.val + p.val, h⟩ l) := by
  have hi := (s2_idx t).1
  unfold iblk2
  rw [View.read_apply]
  show V c main_v44 _ = V c main_v44 _
  congr 1
  funext a
  apply Fin.ext
  match a with
  | ⟨0, _⟩ => show win2_0.index t 0 * 10000 + 1 * p.val = 10000 * t.val + p.val; rw [hi.1]; omega
  | ⟨1, _⟩ => show win2_0.index t 1 * 64 + 1 * l.val = l.val; rw [hi.2]; omega

theorem s2_b1 (c : Dev nD) (t : Fin cfg2.N) : iblk2 V c 1 t = V c main_v46 :=
  read_block_zero main_v46 (win2_1.index t) (s2_idx t).2.1 (V c main_v46)
theorem s2_b2 (c : Dev nD) (t : Fin cfg2.N) : iblk2 V c 2 t = V c main_v57 :=
  read_block_zero main_v57 (win2_2.index t) (s2_idx t).2.2.1 (V c main_v57)
theorem s2_b3 (c : Dev nD) (t : Fin cfg2.N) : iblk2 V c 3 t = V c main_v50 :=
  read_block_zero main_v50 (win2_3.index t) (s2_idx t).2.2.2.1 (V c main_v50)
theorem s2_b4 (c : Dev nD) (t : Fin cfg2.N) : iblk2 V c 4 t = V c main_v58 :=
  read_block_zero main_v58 (win2_4.index t) (s2_idx t).2.2.2.2.1 (V c main_v58)

theorem s2_last_lt : 9 < cfg2.N := by rw [show cfg2.N = 10 from N_2]; decide

theorem s2_rows (c : Dev nD) (j : Fin 64) :
    (outsAt2 V c 9 s2_last_lt).1 (ix2 0 j) = Gin.colSum (y2 V c) j
    ∧ (outsAt2 V c 9 s2_last_lt).2 (ix2 0 j) = Gin.colSumSq (y2 V c) j :=
  mlp_stats N_2 (outsAt2 V c) (fun t => iblk2 V c 0 t) (V c main_v44) (V c main_v46) (V c main_v50) (V c main_v57) (V c main_v58)
    (s2_b0 V c)
    (fun t h0 => by rw [outsAt2_A V c t h0, s2_out_A_5, s2_out_A_6, s2_b1, s2_b2, s2_b3, s2_b4])
    (fun t h' h0 => by rw [outsAt2_B V c t h0, s2_out_B_5, s2_out_B_6, s2_b1, s2_b2, s2_b3, s2_b4])
    s2_last_lt j

-- The last point's block is the whole `[1, 64]` array, so the array ends as the row that point left.
theorem s2_final_5 (c : Dev nD) : (dat2 V c).arrAt 5 cfg2.N = (outsAt2 V c 9 s2_last_lt).1 :=
  (dat2 V c).arrAt_eq_of_cover 5 (outsAt2 V c 9 s2_last_lt).1
    (fun t hf => by
      have hN : cfg2.N = 10 := N_2
      obtain rfl : t = t2_9 := Fin.ext (by have := (flush2_5 t).mp hf; have := t.isLt; show t.val = 9; omega)
      show (cfg2.win 5).cut (grid2.coords t2_9) ((dat2 V c).after 5 t2_9) = _
      rw [after2_5]
      exact (read_block_zero main_v61_0 (win2_5.index t2_9) (s2_idx t2_9).2.2.2.2.2.1 _).symm)
    fun i => ⟨t2_9, (flush2_5 t2_9).mpr rfl, by
      show i ∈ ((View.whole main_v61_0).slice (win2_5.rect t2_9)).set
      rw [View.set_slice_whole]
      exact View.mem_set_unit_zero (funext fun a => by rw [(s2_idx t2_9).2.2.2.2.2.1 a, Nat.zero_mul]) _ i⟩

theorem s2_final_6 (c : Dev nD) : (dat2 V c).arrAt 6 cfg2.N = (outsAt2 V c 9 s2_last_lt).2 :=
  (dat2 V c).arrAt_eq_of_cover 6 (outsAt2 V c 9 s2_last_lt).2
    (fun t hf => by
      have hN : cfg2.N = 10 := N_2
      obtain rfl : t = t2_9 := Fin.ext (by have := (flush2_6 t).mp hf; have := t.isLt; show t.val = 9; omega)
      show (cfg2.win 6).cut (grid2.coords t2_9) ((dat2 V c).after 6 t2_9) = _
      rw [after2_6]
      exact (read_block_zero main_v61_1 (win2_6.index t2_9) (s2_idx t2_9).2.2.2.2.2.2 _).symm)
    fun i => ⟨t2_9, (flush2_6 t2_9).mpr rfl, by
      show i ∈ ((View.whole main_v61_1).slice (win2_6.rect t2_9)).set
      rw [View.set_slice_whole]
      exact View.mem_set_unit_zero (funext fun a => by rw [(s2_idx t2_9).2.2.2.2.2.2 a, Nat.zero_mul]) _ i⟩

theorem stats2_sum (c : Dev nD) (j : Fin 64) :
    ((dat2 (F := Ideal) V c).arrAt 5 cfg2.N : FVec Ideal S1x64 .f32) (ix2 0 j) = Gin.colSum (y2 V c) j :=
  (congrFun (s2_final_5 V c) (ix2 0 j)).trans (s2_rows V c j).1

theorem stats2_sumsq (c : Dev nD) (j : Fin 64) :
    ((dat2 (F := Ideal) V c).arrAt 6 cfg2.N : FVec Ideal S1x64 .f32) (ix2 0 j) = Gin.colSumSq (y2 V c) j :=
  (congrFun (s2_final_6 V c) (ix2 0 j)).trans (s2_rows V c j).2

end Cert.KernelIdeal.Val

end
-- ==== Proof.KApply3.lean ====
import proofs.«427228_j78975858638933_3_alg».proof.Proof.KApply

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

abbrev y3 (c : Dev nD) : Fin 100000 → Fin 64 → EReal :=
  Gin.mlp (fun i l => (V c main_v44 : FVec Ideal S100000x64 .f32) (ix2 i l))
    (fun l k => (V c main_v46 : FVec Ideal S64x64 .f32) (ix2 l k))
    (fun k => (V c main_v57 : FVec Ideal S1x64 .f32) (ix2 0 k))
    (fun k j => (V c main_v50 : FVec Ideal S64x64 .f32) (ix2 k j))
    (fun j => (V c main_v58 : FVec Ideal S1x64 .f32) (ix2 0 j))

theorem apply3_out (c : Dev nD) (i : Fin 100000) (j : Fin 64) :
    ((dat3 (F := Ideal) V c).arrAt 9 cfg3.N : FVec Ideal S100000x64 .f32) (ix2 i j)
      = Gin.applyK (y3 V c) (fun j => (V c main_v63 : FVec Ideal S1x64 .f32) (ix2 0 j))
          (fun j => (V c main_v69 : FVec Ideal S1x64 .f32) (ix2 0 j)) (fun j => (V c main_v59 : FVec Ideal S1x64 .f32) (ix2 0 j))
          (fun j => (V c main_v60 : FVec Ideal S1x64 .f32) (ix2 0 j)) i j := by
  refine congrFun ((dat3 (F := Ideal) V c).arrAt_eq_of_cover 9 (Apply.outArr (y3 V c) _ _ _ _) (fun t _ => ?_)
    fun (i : S100000x64.Idx) => ?_) (ix2 i j)
  · show (cfg3.win 9).cut (grid3.coords t) ((dat3 (F := Ideal) V c).after 9 t) = _
    rw [after3_9]
    funext y
    refine Apply.block_out (lt_of_lt_of_eq t.isLt N_3) (Apply.index t) (Apply.index t) (X := V c main_v44) (fun _ => rfl)
      ?_ ?_ ?_ ?_ ?_ ?_ ?_ ?_ y <;> exact Memref.read_access_unit_zero _ _ (Apply.mulOff _) _ _
  · obtain ⟨t, ht⟩ := Apply.cover_rows (N := cfg3.N) (n := 10000) (by decide) Apply.index i
    refine ⟨t, flush3_9 t, ?_⟩
    show i ∈ ((View.whole main_v70).slice (win3_9.rect t)).set
    rw [View.set_slice_whole]
    exact ht _

end Cert.KernelIdeal.Val

end
-- ==== Proof.KChain1.lean ====
import proofs.«427228_j78975858638933_3_alg».proof.Proof.KLayer
import proofs.«427228_j78975858638933_3_alg».proof.Proof.KStats2
import proofs.«427228_j78975858638933_3_alg».proof.Proof.KApply3

noncomputable section

namespace Cert.KernelIdeal.Val

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

def H1 : Fin 100000 → Fin 64 → EReal := fun i j => (W4 m ρ c (Proc.devRef .tc main_v33) : FVec Ideal S100000x64 .f32) (ix2 i j)

-- An input array of the statistics pass is unchanged through that pass and the stretch after it.
theorem W7_of_in (w : Fin cfg2.W) (hin : (cfg2.win w).isOut = false) (hk : Pipeline.arrRef spec2 w ∉ writes3) :
    W7 m ρ c (Proc.devRef .tc (Pipeline.arrRef spec2 w)) = W5 m ρ c (Proc.devRef .tc (Pipeline.arrRef spec2 w)) :=
  (host3_keep (W6 m ρ c) _ hk).trans
    ((W6_arr m ρ c w).trans (((dat2 (V5 m ρ) c).arrAt_in w hin cfg2.N).trans (A_eq2 (V5 m ρ) c w)))

theorem y2_eq : y2 (V5 m ρ) c
    = Gin.mlp (aggFK m c (H1 m ρ c)) ((pK m c).ws1 0) ((pK m c).bs1 0) ((pK m c).ws2 0) ((pK m c).bs2 0) :=
  mlp_of m c (W4_arg m ρ c) 0 (host2_x _) (host2_w1 _) (host2_b1 _) (host2_w2 _) (host2_b2 _)

theorem y3_eq : y3 (V7 m ρ) c
    = Gin.mlp (aggFK m c (H1 m ρ c)) ((pK m c).ws1 0) ((pK m c).bs1 0) ((pK m c).ws2 0) ((pK m c).bs2 0) :=
  mlp_of m c (W4_arg m ρ c) 0 ((W7_of_in m ρ c 0 rfl (by decide)).trans (host2_x _))
    ((W7_of_in m ρ c 1 rfl (by decide)).trans (host2_w1 _)) ((W7_of_in m ρ c 2 rfl (by decide)).trans (host2_b1 _))
    ((W7_of_in m ρ c 3 rfl (by decide)).trans (host2_w2 _)) ((W7_of_in m ρ c 4 rfl (by decide)).trans (host2_b2 _))

theorem layer1_value (i : Fin 100000) (j : Fin 64) :
    (W8 m ρ c (Proc.devRef .tc main_v70) : FVec Ideal S100000x64 .f32) (ix2 i j)
      = Gin.layerN Gin.normK (0 : Fin 3) (aggFK m c (H1 m ρ c)) (pK m c) i j :=
  (congrFun (W8_arr m ρ c 9) (ix2 i j)).trans ((apply3_out (V7 m ρ) c i j).trans (congrFun (congrFun
    (normK_of (y2_eq m ρ c) (y3_eq m ρ c)
      (fun j => (congrFun (W6_arr m ρ c 5) (ix2 0 j)).trans (stats2_sum (V5 m ρ) c j))
      (fun j => (congrFun (W6_arr m ρ c 6) (ix2 0 j)).trans (stats2_sumsq (V5 m ρ) c j))
      (host3_mean (W6 m ρ c)) (host3_var (W6 m ρ c))
      (gam_of m c (W4_arg m ρ c) 1 ((host3_keep (W6 m ρ c) main_v59 (by decide)).trans
        ((W6_of_ne m ρ c main_v59 (by decide)).trans (host2_g _))))
      (bet_of m c (W4_arg m ρ c) 1 ((host3_keep (W6 m ρ c) main_v60 (by decide)).trans
        ((W6_of_ne m ρ c main_v60 (by decide)).trans (host2_b _))))) i) j))

end Cert.KernelIdeal.Val

end
-- ==== Proof.KStats4.lean ====
import proofs.«427228_j78975858638933_3_alg».proof.Proof.Gen.KernelIdeal.Frame
import proofs.«427228_j78975858638933_3_alg».proof.Proof.Spec
import proofs.«427228_j78975858638933_3_alg».proof.Proof.LibPlainDot
import proofs.«427228_j78975858638933_3_alg».proof.Proof.KStatsCore
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)
open scoped BigOperators

open Stats

variable (V : (c : Dev nD) → (b : Ref sig .tc) → Buf (Elt Ideal) ((c : Thread nD τ).loc b))

abbrev y4 (c : Dev nD) : Fin 100000 → Fin 64 → EReal :=
  Gin.mlp (fun i l => (V c main_v81 : FVec Ideal S100000x64 .f32) (ix2 i l))
    (fun l k => (V c main_v83 : FVec Ideal S64x64 .f32) (ix2 l k))
    (fun k => (V c main_v94 : FVec Ideal S1x64 .f32) (ix2 0 k))
    (fun k j => (V c main_v87 : FVec Ideal S64x64 .f32) (ix2 k j))
    (fun j => (V c main_v95 : FVec Ideal S1x64 .f32) (ix2 0 j))

section Pieces

open Idealize.ShloMosaic.Tactic

variable {F : FTy → Type} [FloatOps F] (c : Dev nD) (i : grid4.Coords)
  (a1 : Memref sig .tc .vmem S10000x64 .f32) (h1 : a1.IsWhole) (a2 : Memref sig .tc .vmem S64x64 .f32) (h2 : a2.IsWhole)
  (a3 : Memref sig .tc .vmem S1x64 .f32) (h3 : a3.IsWhole) (a4 : Memref sig .tc .vmem S64x64 .f32) (h4 : a4.IsWhole)
  (a5 : Memref sig .tc .vmem S1x64 .f32) (h5 : a5.IsWhole) (a6 : Memref sig .tc .vmem S1x64 .f32) (h6 : a6.IsWhole)
  (a7 : Memref sig .tc .vmem S1x64 .f32) (h7 : a7.IsWhole)
  (x0 : Vec F S10000x64 .f32) (x1 : Vec F S64x64 .f32) (x2 : Vec F S1x64 .f32) (x3 : Vec F S64x64 .f32) (x4 : Vec F S1x64 .f32)

-- After the first point a row holds the one store's value: the row it held plus the block's column sums.
theorem s4_out_B_5 (hc : ¬cond4_0 i) (xo5 xo6 : Vec F S1x64 .f32) :
    out4_B_5 c i a1 h1 a2 h2 a3 h3 a4 h4 a5 h5 a6 h6 a7 h7 hc x0 x1 x2 x3 x4 xo5 xo6 = k4_pay5 x0 x1 x2 x3 x4 xo5 := by
  unfold out4_B_5 kernelRun4_B
  dsimp only
  rw [read_writes_whole _ _ hz2]
  simp only [View.readAt_eq_ld, h1.read_unread, h2.read_unread, h3.read_unread, h4.read_unread, h5.read_unread,
    h6.read_unread, h7.read_unread, View.ld_unit_zero (S := S10000x64) hz2, View.ld_unit_zero (S := S64x64) hz2,
    View.ld_unit_zero (S := S1x64) hz2]

theorem s4_out_B_6 (hc : ¬cond4_0 i) (xo5 xo6 : Vec F S1x64 .f32) :
    out4_B_6 c i a1 h1 a2 h2 a3 h3 a4 h4 a5 h5 a6 h6 a7 h7 hc x0 x1 x2 x3 x4 xo5 xo6
      = k4_pay1 (k4_pay6 xo6) (k4_pay7 x0 x1 x2 x3 x4) := by
  unfold out4_B_6 kernelRun4_B
  dsimp only
  sl_unfold_words
  rw [read_writes_whole _ _ hz2]
  simp only [View.readAt_eq_ld, h1.read_unread, h2.read_unread, h3.read_unread, h4.read_unread, h5.read_unread,
    h6.read_unread, h7.read_unread, View.ld_unit_zero (S := S10000x64) hz2, View.ld_unit_zero (S := S64x64) hz2,
    View.ld_unit_zero (S := S1x64) hz2]

-- The first point stores the zero row, reads it back and adds the block's column sums.
theorem s4_out_A_5 (hc : cond4_0 i) :
    out4_A_5 c i a1 h1 a2 h2 a3 h3 a4 h4 a5 h5 a6 h6 a7 h7 hc x0 x1 x2 x3 x4 = k4_pay5 x0 x1 x2 x3 x4 k4_pay2 := by
  unfold out4_A_5 kernelRun4_A
  dsimp only
  sl_unfold_words
  rw [read_writes_whole _ _ hz2, View.readCov_unit_zero (S := S1x64) _ hz2]
  simp only [View.readAt_eq_ld, h1.read_unread, h2.read_unread, h3.read_unread, h4.read_unread, h5.read_unread,
    View.ld_unit_zero (S := S10000x64) hz2, View.ld_unit_zero (S := S64x64) hz2, View.ld_unit_zero (S := S1x64) hz2]

theorem s4_out_A_6 (hc : cond4_0 i) :
    out4_A_6 c i a1 h1 a2 h2 a3 h3 a4 h4 a5 h5 a6 h6 a7 h7 hc x0 x1 x2 x3 x4
      = k4_pay1 (k4_pay6 k4_pay3) (k4_pay7 x0 x1 x2 x3 x4) := by
  unfold out4_A_6 kernelRun4_A
  dsimp only
  sl_unfold_words
  rw [read_writes_whole _ _ hz2, View.readCov_unit_zero (S := S1x64) _ hz2]
  simp only [View.readAt_eq_ld, h1.read_unread, h2.read_unread, h3.read_unread, h4.read_unread, h5.read_unread,
    View.ld_unit_zero (S := S10000x64) hz2, View.ld_unit_zero (S := S64x64) hz2, View.ld_unit_zero (S := S1x64) hz2]

end Pieces

theorem s4_idx : ∀ t : Fin grid4.N, (win4_0.index t 0 = t.val ∧ win4_0.index t 1 = 0) ∧ (∀ a, win4_1.index t a = 0)
      ∧ (∀ a, win4_2.index t a = 0) ∧ (∀ a, win4_3.index t a = 0) ∧ (∀ a, win4_4.index t a = 0)
      ∧ (∀ a, win4_5.index t a = 0) ∧ (∀ a, win4_6.index t a = 0) := by decide +kernel

-- Row `p` of the feature block at point `t` is row `10000 t + p` of the feature array.
theorem s4_b0 (c : Dev nD) (t : Fin cfg4.N) (p : Fin 10000) (l : Fin 64) (h : 10000 * t.val + p.val < 100000) :
    (iblk4 V c 0 t : FVec Ideal S10000x64 .f32) (ix2 p l) = (V c main_v81 : FVec Ideal S100000x64 .f32) (ix2 ⟨10000 * t.val + p.val, h⟩ l) := by
  have hi := (s4_idx t).1
  unfold iblk4
  rw [View.read_apply]
  show V c main_v81 _ = V c main_v81 _
  congr 1
  funext a
  apply Fin.ext
  match a with
  | ⟨0, _⟩ => show win4_0.index t 0 * 10000 + 1 * p.val = 10000 * t.val + p.val; rw [hi.1]; omega
  | ⟨1, _⟩ => show win4_0.index t 1 * 64 + 1 * l.val = l.val; rw [hi.2]; omega

theorem s4_b1 (c : Dev nD) (t : Fin cfg4.N) : iblk4 V c 1 t = V c main_v83 :=
  read_block_zero main_v83 (win4_1.index t) (s4_idx t).2.1 (V c main_v83)
theorem s4_b2 (c : Dev nD) (t : Fin cfg4.N) : iblk4 V c 2 t = V c main_v94 :=
  read_block_zero main_v94 (win4_2.index t) (s4_idx t).2.2.1 (V c main_v94)
theorem s4_b3 (c : Dev nD) (t : Fin cfg4.N) : iblk4 V c 3 t = V c main_v87 :=
  read_block_zero main_v87 (win4_3.index t) (s4_idx t).2.2.2.1 (V c main_v87)
theorem s4_b4 (c : Dev nD) (t : Fin cfg4.N) : iblk4 V c 4 t = V c main_v95 :=
  read_block_zero main_v95 (win4_4.index t) (s4_idx t).2.2.2.2.1 (V c main_v95)

theorem s4_last_lt : 9 < cfg4.N := by rw [show cfg4.N = 10 from N_4]; decide

theorem s4_rows (c : Dev nD) (j : Fin 64) :
    (outsAt4 V c 9 s4_last_lt).1 (ix2 0 j) = Gin.colSum (y4 V c) j
    ∧ (outsAt4 V c 9 s4_last_lt).2 (ix2 0 j) = Gin.colSumSq (y4 V c) j :=
  mlp_stats N_4 (outsAt4 V c) (fun t => iblk4 V c 0 t) (V c main_v81) (V c main_v83) (V c main_v87) (V c main_v94) (V c main_v95)
    (s4_b0 V c)
    (fun t h0 => by rw [outsAt4_A V c t h0, s4_out_A_5, s4_out_A_6, s4_b1, s4_b2, s4_b3, s4_b4]; rfl)
    (fun t h' h0 => by rw [outsAt4_B V c t h0, s4_out_B_5, s4_out_B_6, s4_b1, s4_b2, s4_b3, s4_b4]; rfl)
    s4_last_lt j

-- The last point's block is the whole `[1, 64]` array, so the array ends as the row that point left.
theorem s4_final_5 (c : Dev nD) : (dat4 V c).arrAt 5 cfg4.N = (outsAt4 V c 9 s4_last_lt).1 :=
  (dat4 V c).arrAt_eq_of_cover 5 (outsAt4 V c 9 s4_last_lt).1
    (fun t hf => by
      have hN : cfg4.N = 10 := N_4
      obtain rfl : t = t4_9 := Fin.ext (by have := (flush4_5 t).mp hf; have := t.isLt; show t.val = 9; omega)
      show (cfg4.win 5).cut (grid4.coords t4_9) ((dat4 V c).after 5 t4_9) = _
      rw [after4_5]
      exact (read_block_zero main_v98_0 (win4_5.index t4_9) (s4_idx t4_9).2.2.2.2.2.1 _).symm)
    fun i => ⟨t4_9, (flush4_5 t4_9).mpr rfl, by
      show i ∈ ((View.whole main_v98_0).slice (win4_5.rect t4_9)).set
      rw [View.set_slice_whole]
      exact View.mem_set_unit_zero (funext fun a => by rw [(s4_idx t4_9).2.2.2.2.2.1 a, Nat.zero_mul]) _ i⟩

theorem s4_final_6 (c : Dev nD) : (dat4 V c).arrAt 6 cfg4.N = (outsAt4 V c 9 s4_last_lt).2 :=
  (dat4 V c).arrAt_eq_of_cover 6 (outsAt4 V c 9 s4_last_lt).2
    (fun t hf => by
      have hN : cfg4.N = 10 := N_4
      obtain rfl : t = t4_9 := Fin.ext (by have := (flush4_6 t).mp hf; have := t.isLt; show t.val = 9; omega)
      show (cfg4.win 6).cut (grid4.coords t4_9) ((dat4 V c).after 6 t4_9) = _
      rw [after4_6]
      exact (read_block_zero main_v98_1 (win4_6.index t4_9) (s4_idx t4_9).2.2.2.2.2.2 _).symm)
    fun i => ⟨t4_9, (flush4_6 t4_9).mpr rfl, by
      show i ∈ ((View.whole main_v98_1).slice (win4_6.rect t4_9)).set
      rw [View.set_slice_whole]
      exact View.mem_set_unit_zero (funext fun a => by rw [(s4_idx t4_9).2.2.2.2.2.2 a, Nat.zero_mul]) _ i⟩

theorem stats4_sum (c : Dev nD) (j : Fin 64) :
    ((dat4 (F := Ideal) V c).arrAt 5 cfg4.N : FVec Ideal S1x64 .f32) (ix2 0 j) = Gin.colSum (y4 V c) j :=
  (congrFun (s4_final_5 V c) (ix2 0 j)).trans (s4_rows V c j).1

theorem stats4_sumsq (c : Dev nD) (j : Fin 64) :
    ((dat4 (F := Ideal) V c).arrAt 6 cfg4.N : FVec Ideal S1x64 .f32) (ix2 0 j) = Gin.colSumSq (y4 V c) j :=
  (congrFun (s4_final_6 V c) (ix2 0 j)).trans (s4_rows V c j).2

end Cert.KernelIdeal.Val

end
-- ==== Proof.KApply5.lean ====
import proofs.«427228_j78975858638933_3_alg».proof.Proof.KApply

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

abbrev y5 (c : Dev nD) : Fin 100000 → Fin 64 → EReal :=
  Gin.mlp (fun i l => (V c main_v81 : FVec Ideal S100000x64 .f32) (ix2 i l))
    (fun l k => (V c main_v83 : FVec Ideal S64x64 .f32) (ix2 l k))
    (fun k => (V c main_v94 : FVec Ideal S1x64 .f32) (ix2 0 k))
    (fun k j => (V c main_v87 : FVec Ideal S64x64 .f32) (ix2 k j))
    (fun j => (V c main_v95 : FVec Ideal S1x64 .f32) (ix2 0 j))

theorem apply5_out (c : Dev nD) (i : Fin 100000) (j : Fin 64) :
    ((dat5 (F := Ideal) V c).arrAt 9 cfg5.N : FVec Ideal S100000x64 .f32) (ix2 i j)
      = Gin.applyK (y5 V c) (fun j => (V c main_v100 : FVec Ideal S1x64 .f32) (ix2 0 j))
          (fun j => (V c main_v106 : FVec Ideal S1x64 .f32) (ix2 0 j)) (fun j => (V c main_v96 : FVec Ideal S1x64 .f32) (ix2 0 j))
          (fun j => (V c main_v97 : FVec Ideal S1x64 .f32) (ix2 0 j)) i j := by
  refine congrFun ((dat5 (F := Ideal) V c).arrAt_eq_of_cover 9 (Apply.outArr (y5 V c) _ _ _ _) (fun t _ => ?_)
    fun (i : S100000x64.Idx) => ?_) (ix2 i j)
  · show (cfg5.win 9).cut (grid5.coords t) ((dat5 (F := Ideal) V c).after 9 t) = _
    rw [after5_9]
    funext y
    refine Apply.block_out (lt_of_lt_of_eq t.isLt N_5) (Apply.index t) (Apply.index t) (X := V c main_v81) (fun _ => rfl)
      ?_ ?_ ?_ ?_ ?_ ?_ ?_ ?_ y <;> exact Memref.read_access_unit_zero _ _ (Apply.mulOff _) _ _
  · obtain ⟨t, ht⟩ := Apply.cover_rows (N := cfg5.N) (n := 10000) (by decide) Apply.index i
    refine ⟨t, flush5_9 t, ?_⟩
    show i ∈ ((View.whole main_v107).slice (win5_9.rect t)).set
    rw [View.set_slice_whole]
    exact ht _

end Cert.KernelIdeal.Val

end
-- ==== Proof.KChain2.lean ====
import proofs.«427228_j78975858638933_3_alg».proof.Proof.KLayer
import proofs.«427228_j78975858638933_3_alg».proof.Proof.KStats4
import proofs.«427228_j78975858638933_3_alg».proof.Proof.KApply5

noncomputable section

namespace Cert.KernelIdeal.Val

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

def H2 : Fin 100000 → Fin 64 → EReal := fun i j => (W8 m ρ c (Proc.devRef .tc main_v70) : FVec Ideal S100000x64 .f32) (ix2 i j)

-- An input array of the statistics pass is unchanged through that pass and the stretch after it.
theorem W11_of_in (w : Fin cfg4.W) (hin : (cfg4.win w).isOut = false) (hk : Pipeline.arrRef spec4 w ∉ writes5) :
    W11 m ρ c (Proc.devRef .tc (Pipeline.arrRef spec4 w)) = W9 m ρ c (Proc.devRef .tc (Pipeline.arrRef spec4 w)) :=
  (host5_keep (W10 m ρ c) _ hk).trans
    ((W10_arr m ρ c w).trans (((dat4 (V9 m ρ) c).arrAt_in w hin cfg4.N).trans (A_eq4 (V9 m ρ) c w)))

theorem y4_eq : y4 (V9 m ρ) c
    = Gin.mlp (aggFK m c (H2 m ρ c)) ((pK m c).ws1 1) ((pK m c).bs1 1) ((pK m c).ws2 1) ((pK m c).bs2 1) :=
  mlp_of m c (W8_arg m ρ c) 1 (host4_x _) (host4_w1 _) (host4_b1 _) (host4_w2 _) (host4_b2 _)

theorem y5_eq : y5 (V11 m ρ) c
    = Gin.mlp (aggFK m c (H2 m ρ c)) ((pK m c).ws1 1) ((pK m c).bs1 1) ((pK m c).ws2 1) ((pK m c).bs2 1) :=
  mlp_of m c (W8_arg m ρ c) 1 ((W11_of_in m ρ c 0 rfl (by decide)).trans (host4_x _))
    ((W11_of_in m ρ c 1 rfl (by decide)).trans (host4_w1 _)) ((W11_of_in m ρ c 2 rfl (by decide)).trans (host4_b1 _))
    ((W11_of_in m ρ c 3 rfl (by decide)).trans (host4_w2 _)) ((W11_of_in m ρ c 4 rfl (by decide)).trans (host4_b2 _))

theorem layer2_value (i : Fin 100000) (j : Fin 64) :
    (W12 m ρ c (Proc.devRef .tc main_v107) : FVec Ideal S100000x64 .f32) (ix2 i j)
      = Gin.layerN Gin.normK (1 : Fin 3) (aggFK m c (H2 m ρ c)) (pK m c) i j :=
  (congrFun (W12_arr m ρ c 9) (ix2 i j)).trans ((apply5_out (V11 m ρ) c i j).trans (congrFun (congrFun
    (normK_of (y4_eq m ρ c) (y5_eq m ρ c)
      (fun j => (congrFun (W10_arr m ρ c 5) (ix2 0 j)).trans (stats4_sum (V9 m ρ) c j))
      (fun j => (congrFun (W10_arr m ρ c 6) (ix2 0 j)).trans (stats4_sumsq (V9 m ρ) c j))
      (host5_mean (W10 m ρ c)) (host5_var (W10 m ρ c))
      (gam_of m c (W8_arg m ρ c) 2 ((host5_keep (W10 m ρ c) main_v96 (by decide)).trans
        ((W10_of_ne m ρ c main_v96 (by decide)).trans (host4_g _))))
      (bet_of m c (W8_arg m ρ c) 2 ((host5_keep (W10 m ρ c) main_v97 (by decide)).trans
        ((W10_of_ne m ρ c main_v97 (by decide)).trans (host4_b _))))) i) j))

end Cert.KernelIdeal.Val

end
-- ==== Proof.KStats6.lean ====
import proofs.«427228_j78975858638933_3_alg».proof.Proof.Gen.KernelIdeal.Frame
import proofs.«427228_j78975858638933_3_alg».proof.Proof.Spec
import proofs.«427228_j78975858638933_3_alg».proof.Proof.LibPlainDot
import proofs.«427228_j78975858638933_3_alg».proof.Proof.KStatsCore
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)
open scoped BigOperators

open Stats

variable (V : (c : Dev nD) → (b : Ref sig .tc) → Buf (Elt Ideal) ((c : Thread nD τ).loc b))

abbrev y6 (c : Dev nD) : Fin 100000 → Fin 64 → EReal :=
  Gin.mlp (fun i l => (V c main_v118 : FVec Ideal S100000x64 .f32) (ix2 i l))
    (fun l k => (V c main_v120 : FVec Ideal S64x64 .f32) (ix2 l k))
    (fun k => (V c main_v131 : FVec Ideal S1x64 .f32) (ix2 0 k))
    (fun k j => (V c main_v124 : FVec Ideal S64x64 .f32) (ix2 k j))
    (fun j => (V c main_v132 : FVec Ideal S1x64 .f32) (ix2 0 j))

section Pieces

open Idealize.ShloMosaic.Tactic

variable {F : FTy → Type} [FloatOps F] (c : Dev nD) (i : grid6.Coords)
  (a1 : Memref sig .tc .vmem S10000x64 .f32) (h1 : a1.IsWhole) (a2 : Memref sig .tc .vmem S64x64 .f32) (h2 : a2.IsWhole)
  (a3 : Memref sig .tc .vmem S1x64 .f32) (h3 : a3.IsWhole) (a4 : Memref sig .tc .vmem S64x64 .f32) (h4 : a4.IsWhole)
  (a5 : Memref sig .tc .vmem S1x64 .f32) (h5 : a5.IsWhole) (a6 : Memref sig .tc .vmem S1x64 .f32) (h6 : a6.IsWhole)
  (a7 : Memref sig .tc .vmem S1x64 .f32) (h7 : a7.IsWhole)
  (x0 : Vec F S10000x64 .f32) (x1 : Vec F S64x64 .f32) (x2 : Vec F S1x64 .f32) (x3 : Vec F S64x64 .f32) (x4 : Vec F S1x64 .f32)

-- After the first point a row holds the one store's value: the row it held plus the block's column sums.
theorem s6_out_B_5 (hc : ¬cond6_0 i) (xo5 xo6 : Vec F S1x64 .f32) :
    out6_B_5 c i a1 h1 a2 h2 a3 h3 a4 h4 a5 h5 a6 h6 a7 h7 hc x0 x1 x2 x3 x4 xo5 xo6 = k6_pay5 x0 x1 x2 x3 x4 xo5 := by
  unfold out6_B_5 kernelRun6_B
  dsimp only
  rw [read_writes_whole _ _ hz2]
  simp only [View.readAt_eq_ld, h1.read_unread, h2.read_unread, h3.read_unread, h4.read_unread, h5.read_unread,
    h6.read_unread, h7.read_unread, View.ld_unit_zero (S := S10000x64) hz2, View.ld_unit_zero (S := S64x64) hz2,
    View.ld_unit_zero (S := S1x64) hz2]

theorem s6_out_B_6 (hc : ¬cond6_0 i) (xo5 xo6 : Vec F S1x64 .f32) :
    out6_B_6 c i a1 h1 a2 h2 a3 h3 a4 h4 a5 h5 a6 h6 a7 h7 hc x0 x1 x2 x3 x4 xo5 xo6
      = k6_pay1 (k6_pay6 xo6) (k6_pay7 x0 x1 x2 x3 x4) := by
  unfold out6_B_6 kernelRun6_B
  dsimp only
  sl_unfold_words
  rw [read_writes_whole _ _ hz2]
  simp only [View.readAt_eq_ld, h1.read_unread, h2.read_unread, h3.read_unread, h4.read_unread, h5.read_unread,
    h6.read_unread, h7.read_unread, View.ld_unit_zero (S := S10000x64) hz2, View.ld_unit_zero (S := S64x64) hz2,
    View.ld_unit_zero (S := S1x64) hz2]

-- The first point stores the zero row, reads it back and adds the block's column sums.
theorem s6_out_A_5 (hc : cond6_0 i) :
    out6_A_5 c i a1 h1 a2 h2 a3 h3 a4 h4 a5 h5 a6 h6 a7 h7 hc x0 x1 x2 x3 x4 = k6_pay5 x0 x1 x2 x3 x4 k6_pay2 := by
  unfold out6_A_5 kernelRun6_A
  dsimp only
  sl_unfold_words
  rw [read_writes_whole _ _ hz2, View.readCov_unit_zero (S := S1x64) _ hz2]
  simp only [View.readAt_eq_ld, h1.read_unread, h2.read_unread, h3.read_unread, h4.read_unread, h5.read_unread,
    View.ld_unit_zero (S := S10000x64) hz2, View.ld_unit_zero (S := S64x64) hz2, View.ld_unit_zero (S := S1x64) hz2]

theorem s6_out_A_6 (hc : cond6_0 i) :
    out6_A_6 c i a1 h1 a2 h2 a3 h3 a4 h4 a5 h5 a6 h6 a7 h7 hc x0 x1 x2 x3 x4
      = k6_pay1 (k6_pay6 k6_pay3) (k6_pay7 x0 x1 x2 x3 x4) := by
  unfold out6_A_6 kernelRun6_A
  dsimp only
  sl_unfold_words
  rw [read_writes_whole _ _ hz2, View.readCov_unit_zero (S := S1x64) _ hz2]
  simp only [View.readAt_eq_ld, h1.read_unread, h2.read_unread, h3.read_unread, h4.read_unread, h5.read_unread,
    View.ld_unit_zero (S := S10000x64) hz2, View.ld_unit_zero (S := S64x64) hz2, View.ld_unit_zero (S := S1x64) hz2]

end Pieces

theorem s6_idx : ∀ t : Fin grid6.N, (win6_0.index t 0 = t.val ∧ win6_0.index t 1 = 0) ∧ (∀ a, win6_1.index t a = 0)
      ∧ (∀ a, win6_2.index t a = 0) ∧ (∀ a, win6_3.index t a = 0) ∧ (∀ a, win6_4.index t a = 0)
      ∧ (∀ a, win6_5.index t a = 0) ∧ (∀ a, win6_6.index t a = 0) := by decide +kernel

-- Row `p` of the feature block at point `t` is row `10000 t + p` of the feature array.
theorem s6_b0 (c : Dev nD) (t : Fin cfg6.N) (p : Fin 10000) (l : Fin 64) (h : 10000 * t.val + p.val < 100000) :
    (iblk6 V c 0 t : FVec Ideal S10000x64 .f32) (ix2 p l) = (V c main_v118 : FVec Ideal S100000x64 .f32) (ix2 ⟨10000 * t.val + p.val, h⟩ l) := by
  have hi := (s6_idx t).1
  unfold iblk6
  rw [View.read_apply]
  show V c main_v118 _ = V c main_v118 _
  congr 1
  funext a
  apply Fin.ext
  match a with
  | ⟨0, _⟩ => show win6_0.index t 0 * 10000 + 1 * p.val = 10000 * t.val + p.val; rw [hi.1]; omega
  | ⟨1, _⟩ => show win6_0.index t 1 * 64 + 1 * l.val = l.val; rw [hi.2]; omega

theorem s6_b1 (c : Dev nD) (t : Fin cfg6.N) : iblk6 V c 1 t = V c main_v120 :=
  read_block_zero main_v120 (win6_1.index t) (s6_idx t).2.1 (V c main_v120)
theorem s6_b2 (c : Dev nD) (t : Fin cfg6.N) : iblk6 V c 2 t = V c main_v131 :=
  read_block_zero main_v131 (win6_2.index t) (s6_idx t).2.2.1 (V c main_v131)
theorem s6_b3 (c : Dev nD) (t : Fin cfg6.N) : iblk6 V c 3 t = V c main_v124 :=
  read_block_zero main_v124 (win6_3.index t) (s6_idx t).2.2.2.1 (V c main_v124)
theorem s6_b4 (c : Dev nD) (t : Fin cfg6.N) : iblk6 V c 4 t = V c main_v132 :=
  read_block_zero main_v132 (win6_4.index t) (s6_idx t).2.2.2.2.1 (V c main_v132)

theorem s6_last_lt : 9 < cfg6.N := by rw [show cfg6.N = 10 from N_6]; decide

theorem s6_rows (c : Dev nD) (j : Fin 64) :
    (outsAt6 V c 9 s6_last_lt).1 (ix2 0 j) = Gin.colSum (y6 V c) j
    ∧ (outsAt6 V c 9 s6_last_lt).2 (ix2 0 j) = Gin.colSumSq (y6 V c) j :=
  mlp_stats N_6 (outsAt6 V c) (fun t => iblk6 V c 0 t) (V c main_v118) (V c main_v120) (V c main_v124) (V c main_v131) (V c main_v132)
    (s6_b0 V c)
    (fun t h0 => by rw [outsAt6_A V c t h0, s6_out_A_5, s6_out_A_6, s6_b1, s6_b2, s6_b3, s6_b4]; rfl)
    (fun t h' h0 => by rw [outsAt6_B V c t h0, s6_out_B_5, s6_out_B_6, s6_b1, s6_b2, s6_b3, s6_b4]; rfl)
    s6_last_lt j

-- The last point's block is the whole `[1, 64]` array, so the array ends as the row that point left.
theorem s6_final_5 (c : Dev nD) : (dat6 V c).arrAt 5 cfg6.N = (outsAt6 V c 9 s6_last_lt).1 :=
  (dat6 V c).arrAt_eq_of_cover 5 (outsAt6 V c 9 s6_last_lt).1
    (fun t hf => by
      have hN : cfg6.N = 10 := N_6
      obtain rfl : t = t6_9 := Fin.ext (by have := (flush6_5 t).mp hf; have := t.isLt; show t.val = 9; omega)
      show (cfg6.win 5).cut (grid6.coords t6_9) ((dat6 V c).after 5 t6_9) = _
      rw [after6_5]
      exact (read_block_zero main_v135_0 (win6_5.index t6_9) (s6_idx t6_9).2.2.2.2.2.1 _).symm)
    fun i => ⟨t6_9, (flush6_5 t6_9).mpr rfl, by
      show i ∈ ((View.whole main_v135_0).slice (win6_5.rect t6_9)).set
      rw [View.set_slice_whole]
      exact View.mem_set_unit_zero (funext fun a => by rw [(s6_idx t6_9).2.2.2.2.2.1 a, Nat.zero_mul]) _ i⟩

theorem s6_final_6 (c : Dev nD) : (dat6 V c).arrAt 6 cfg6.N = (outsAt6 V c 9 s6_last_lt).2 :=
  (dat6 V c).arrAt_eq_of_cover 6 (outsAt6 V c 9 s6_last_lt).2
    (fun t hf => by
      have hN : cfg6.N = 10 := N_6
      obtain rfl : t = t6_9 := Fin.ext (by have := (flush6_6 t).mp hf; have := t.isLt; show t.val = 9; omega)
      show (cfg6.win 6).cut (grid6.coords t6_9) ((dat6 V c).after 6 t6_9) = _
      rw [after6_6]
      exact (read_block_zero main_v135_1 (win6_6.index t6_9) (s6_idx t6_9).2.2.2.2.2.2 _).symm)
    fun i => ⟨t6_9, (flush6_6 t6_9).mpr rfl, by
      show i ∈ ((View.whole main_v135_1).slice (win6_6.rect t6_9)).set
      rw [View.set_slice_whole]
      exact View.mem_set_unit_zero (funext fun a => by rw [(s6_idx t6_9).2.2.2.2.2.2 a, Nat.zero_mul]) _ i⟩

theorem stats6_sum (c : Dev nD) (j : Fin 64) :
    ((dat6 (F := Ideal) V c).arrAt 5 cfg6.N : FVec Ideal S1x64 .f32) (ix2 0 j) = Gin.colSum (y6 V c) j :=
  (congrFun (s6_final_5 V c) (ix2 0 j)).trans (s6_rows V c j).1

theorem stats6_sumsq (c : Dev nD) (j : Fin 64) :
    ((dat6 (F := Ideal) V c).arrAt 6 cfg6.N : FVec Ideal S1x64 .f32) (ix2 0 j) = Gin.colSumSq (y6 V c) j :=
  (congrFun (s6_final_6 V c) (ix2 0 j)).trans (s6_rows V c j).2

end Cert.KernelIdeal.Val

end
-- ==== Proof.KApply7.lean ====
import proofs.«427228_j78975858638933_3_alg».proof.Proof.KApply

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

abbrev y7 (c : Dev nD) : Fin 100000 → Fin 64 → EReal :=
  Gin.mlp (fun i l => (V c main_v118 : FVec Ideal S100000x64 .f32) (ix2 i l))
    (fun l k => (V c main_v120 : FVec Ideal S64x64 .f32) (ix2 l k))
    (fun k => (V c main_v131 : FVec Ideal S1x64 .f32) (ix2 0 k))
    (fun k j => (V c main_v124 : FVec Ideal S64x64 .f32) (ix2 k j))
    (fun j => (V c main_v132 : FVec Ideal S1x64 .f32) (ix2 0 j))

theorem apply7_out (c : Dev nD) (i : Fin 100000) (j : Fin 64) :
    ((dat7 (F := Ideal) V c).arrAt 9 cfg7.N : FVec Ideal S100000x64 .f32) (ix2 i j)
      = Gin.applyK (y7 V c) (fun j => (V c main_v137 : FVec Ideal S1x64 .f32) (ix2 0 j))
          (fun j => (V c main_v143 : FVec Ideal S1x64 .f32) (ix2 0 j)) (fun j => (V c main_v133 : FVec Ideal S1x64 .f32) (ix2 0 j))
          (fun j => (V c main_v134 : FVec Ideal S1x64 .f32) (ix2 0 j)) i j := by
  refine congrFun ((dat7 (F := Ideal) V c).arrAt_eq_of_cover 9 (Apply.outArr (y7 V c) _ _ _ _) (fun t _ => ?_)
    fun (i : S100000x64.Idx) => ?_) (ix2 i j)
  · show (cfg7.win 9).cut (grid7.coords t) ((dat7 (F := Ideal) V c).after 9 t) = _
    rw [after7_9]
    funext y
    refine Apply.block_out (lt_of_lt_of_eq t.isLt N_7) (Apply.index t) (Apply.index t) (X := V c main_v118) (fun _ => rfl)
      ?_ ?_ ?_ ?_ ?_ ?_ ?_ ?_ y <;> exact Memref.read_access_unit_zero _ _ (Apply.mulOff _) _ _
  · obtain ⟨t, ht⟩ := Apply.cover_rows (N := cfg7.N) (n := 10000) (by decide) Apply.index i
    refine ⟨t, flush7_9 t, ?_⟩
    show i ∈ ((View.whole main_v144).slice (win7_9.rect t)).set
    rw [View.set_slice_whole]
    exact ht _

end Cert.KernelIdeal.Val

end
-- ==== Proof.KChain3.lean ====
import proofs.«427228_j78975858638933_3_alg».proof.Proof.KLayer
import proofs.«427228_j78975858638933_3_alg».proof.Proof.KStats6
import proofs.«427228_j78975858638933_3_alg».proof.Proof.KApply7

noncomputable section

namespace Cert.KernelIdeal.Val

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

def H3 : Fin 100000 → Fin 64 → EReal := fun i j => (W12 m ρ c (Proc.devRef .tc main_v107) : FVec Ideal S100000x64 .f32) (ix2 i j)

-- An input array of the statistics pass is unchanged through that pass and the stretch after it.
theorem W15_of_in (w : Fin cfg6.W) (hin : (cfg6.win w).isOut = false) (hk : Pipeline.arrRef spec6 w ∉ writes7) :
    W15 m ρ c (Proc.devRef .tc (Pipeline.arrRef spec6 w)) = W13 m ρ c (Proc.devRef .tc (Pipeline.arrRef spec6 w)) :=
  (host7_keep (W14 m ρ c) _ hk).trans
    ((W14_arr m ρ c w).trans (((dat6 (V13 m ρ) c).arrAt_in w hin cfg6.N).trans (A_eq6 (V13 m ρ) c w)))

theorem y6_eq : y6 (V13 m ρ) c
    = Gin.mlp (aggFK m c (H3 m ρ c)) ((pK m c).ws1 2) ((pK m c).bs1 2) ((pK m c).ws2 2) ((pK m c).bs2 2) :=
  mlp_of m c (W12_arg m ρ c) 2 (host6_x _) (host6_w1 _) (host6_b1 _) (host6_w2 _) (host6_b2 _)

theorem y7_eq : y7 (V15 m ρ) c
    = Gin.mlp (aggFK m c (H3 m ρ c)) ((pK m c).ws1 2) ((pK m c).bs1 2) ((pK m c).ws2 2) ((pK m c).bs2 2) :=
  mlp_of m c (W12_arg m ρ c) 2 ((W15_of_in m ρ c 0 rfl (by decide)).trans (host6_x _))
    ((W15_of_in m ρ c 1 rfl (by decide)).trans (host6_w1 _)) ((W15_of_in m ρ c 2 rfl (by decide)).trans (host6_b1 _))
    ((W15_of_in m ρ c 3 rfl (by decide)).trans (host6_w2 _)) ((W15_of_in m ρ c 4 rfl (by decide)).trans (host6_b2 _))

theorem layer3_value (i : Fin 100000) (j : Fin 64) :
    (W16 m ρ c (Proc.devRef .tc main_v144) : FVec Ideal S100000x64 .f32) (ix2 i j)
      = Gin.layerN Gin.normK (2 : Fin 3) (aggFK m c (H3 m ρ c)) (pK m c) i j :=
  (congrFun (W16_arr m ρ c 9) (ix2 i j)).trans ((apply7_out (V15 m ρ) c i j).trans (congrFun (congrFun
    (normK_of (y6_eq m ρ c) (y7_eq m ρ c)
      (fun j => (congrFun (W14_arr m ρ c 5) (ix2 0 j)).trans (stats6_sum (V13 m ρ) c j))
      (fun j => (congrFun (W14_arr m ρ c 6) (ix2 0 j)).trans (stats6_sumsq (V13 m ρ) c j))
      (host7_mean (W14 m ρ c)) (host7_var (W14 m ρ c))
      (gam_of m c (W12_arg m ρ c) 3 ((host7_keep (W14 m ρ c) main_v133 (by decide)).trans
        ((W14_of_ne m ρ c main_v133 (by decide)).trans (host6_g _))))
      (bet_of m c (W12_arg m ρ c) 3 ((host7_keep (W14 m ρ c) main_v134 (by decide)).trans
        ((W14_of_ne m ρ c main_v134 (by decide)).trans (host6_b _))))) i) j))

end Cert.KernelIdeal.Val

end
-- ==== Proof.KFinal.lean ====
import proofs.«427228_j78975858638933_3_alg».proof.Proof.Gen.KernelIdeal.Frame
import proofs.«427228_j78975858638933_3_alg».proof.Proof.Net
import proofs.«427228_j78975858638933_3_alg».proof.Proof.KParams
import proofs.«427228_j78975858638933_3_alg».proof.Proof.KChain0
import proofs.«427228_j78975858638933_3_alg».proof.Proof.KChain1
import proofs.«427228_j78975858638933_3_alg».proof.Proof.KChain2
import proofs.«427228_j78975858638933_3_alg».proof.Proof.KChain3
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

theorem kernel_result (i : Fin 100000) (j : Fin 64) :
    (W16 m ρ c (Proc.devRef .tc main_v144) : FVec Ideal S100000x64 .f32) (ix2 i j)
      = Gin.net Gin.normK (x0K m c) (aggFK m c) (pK m c) i j := by
  have h1 : H1 m ρ c = Gin.layer0 Gin.normK (x0K m c) (pK m c) :=
    funext fun i => funext fun j => layer0_value m ρ c i j
  have h2 : H2 m ρ c = Gin.layerN Gin.normK 0 (aggFK m c (H1 m ρ c)) (pK m c) :=
    funext fun i => funext fun j => layer1_value m ρ c i j
  have h3 : H3 m ρ c = Gin.layerN Gin.normK 1 (aggFK m c (H2 m ρ c)) (pK m c) :=
    funext fun i => funext fun j => layer2_value m ρ c i j
  rw [layer3_value m ρ c i j, h3, h2, h1]
  rfl

end Cert.KernelIdeal.Val

end
-- ==== Proof.ROps.lean ====
import proofs.«427228_j78975858638933_3_alg».proof.Proof.Gen.ReferenceIdeal
import Idealize.ShloMosaic.Lib.StableHlo.Run

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

abbrev opsL0 : List (HloOp τ sig (Elt F)) :=
  [ StableHlo.nullary main_cst (constant S_ .f32 0x3F800000#32),
    StableHlo.unary main_cst main_v0 (broadcastInDim S1600000 ![] bcast_S_S1600000),
    StableHlo.nullary main_cst_0 (constant S_ .f32 0x00000000#32),
    StableHlo.unary main_cst_0 main_v1 (broadcastInDim S100000 ![] bcast_S_S100000),
    StableHlo.unary main_arg1 main_v2 (broadcastInDim S1600000x1 ![0] bcast_S1600000_S1600000x1_0),
    StableHlo.ternary main_v1 main_v2 main_v0 main_v3 (fun x i u => Host.scatterAdd scatter_S100000_S1600000x1_S1600000_n_0_0_1 x i u),
    StableHlo.unary main_v3 main_v4 (broadcastInDim S100000x1 ![0] bcast_S100000_S100000x1_0),
    StableHlo.nullary main_c (constantI S_ 32 0#32),
    StableHlo.unary main_c main_v5 (broadcastInDim S1600000 ![] bcast_S_S1600000),
    StableHlo.binary main_arg0 main_v5 main_v6 (cmpi .slt),
    StableHlo.nullary main_c_1 (constantI S_ 32 100000#32),
    StableHlo.unary main_c_1 main_v7 (broadcastInDim S1600000 ![] bcast_S_S1600000),
    StableHlo.binary main_arg0 main_v7 main_v8 addi,
    StableHlo.ternary main_v6 main_v8 main_arg0 main_v9 select,
    StableHlo.unary main_v9 main_v10 (broadcastInDim S1600000x1 ![0] bcast_S1600000_S1600000x1_0),
    StableHlo.binary main_v4 main_v10 main_v11 (fun x i => Host.gather gather_S100000x1_S1600000x1_S1600000x1_1_0_n_n_0_1_11 x i),
    StableHlo.nullary main_cst_2 (constant S_ .f32 0x00000000#32),
    StableHlo.unary main_cst_2 main_v12 (broadcastInDim S100000x1 ![] bcast_S_S100000x1),
    StableHlo.unary main_arg1 main_v13 (broadcastInDim S1600000x1 ![0] bcast_S1600000_S1600000x1_0),
    StableHlo.ternary main_v12 main_v13 main_v11 main_v14 (fun x i u => Host.scatterAdd scatter_S100000x1_S1600000x1_S1600000x1_1_0_0_1 x i u),
    StableHlo.binary main_v4 main_v14 main_v15 addf,
    StableHlo.binary main_v15 main_arg2 main_v16 (fun l r => Host.dotGeneral dot_S100000x1_S1x64_S100000x64_1_0_0_1_n_n none l r),
    StableHlo.unary main_arg3 main_v17 (broadcastInDim S1x64 ![1] bcast_S64_S1x64_1),
    StableHlo.unary main_v17 main_v18 (broadcastInDim S100000x64 ![0, 1] bcast_S1x64_S100000x64_0_1),
    StableHlo.binary main_v16 main_v18 main_v19 addf,
    StableHlo.TRef.nullary main_call0.cst (constant S_ .f32 0x00000000#32),
    StableHlo.TRef.unary main_call0.cst main_call0.v0 (broadcastInDim S100000x64 ![] bcast_S_S100000x64),
    StableHlo.TRef.binary (.of main_v19) main_call0.v0 main_call0.v1 maximumf,
    StableHlo.binary main_v20 main_arg4 main_v21 (fun l r => Host.dotGeneral dot_S100000x64_S64x64_S100000x64_1_0_0_1_n_n none l r),
    StableHlo.unary main_arg5 main_v22 (broadcastInDim S1x64 ![1] bcast_S64_S1x64_1),
    StableHlo.unary main_v22 main_v23 (broadcastInDim S100000x64 ![0, 1] bcast_S1x64_S100000x64_0_1),
    StableHlo.binary main_v21 main_v23 main_v24 addf,
    StableHlo.unary main_arg10 main_v25 (extractStridedSlice S1x64 ![0, 0] · slices_S4x64_S1x64_0_0),
    StableHlo.reshape main_v25 main_v26 rfl shapeCasts_S1x64_S64,
    StableHlo.unary main_arg11 main_v27 (extractStridedSlice S1x64 ![0, 0] · slices_S4x64_S1x64_0_0),
    StableHlo.reshape main_v27 main_v28 rfl shapeCasts_S1x64_S64,
    StableHlo.nullary main_cst_3 (constant S_ .f32 0x00000000#32),
    StableHlo.binary main_v24 main_cst_3 main_v29 (fun x v => Host.reduceAdd x v reducesTo_S100000x64_S64_d0 h_S_),
    StableHlo.nullary main_cst_4 (constant S_ .f32 0x47C35000#32),
    StableHlo.unary main_cst_4 main_v30 (broadcastInDim S64 ![] bcast_S_S64),
    StableHlo.binary main_v29 main_v30 main_v31 (Host.divf),
    StableHlo.nullary main_c_5 (constantI S_ 32 0#32),
    StableHlo.TRef.nullary main_call1.cst (constant S_ .f32 0x00000000#32),
    StableHlo.TRef.binary (.of main_v24) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S100000x64 ![0, 1] bcast_S1x64_S100000x64_0_1),
    StableHlo.TRef.binary (.of main_v24) main_call1.v4 main_call1.v5 subf,
    StableHlo.TRef.binary main_call1.v5 main_call1.v5 main_call1.v6 mulf,
    StableHlo.TRef.unary (.of main_c_5) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v31 main_v33 (broadcastInDim S1x64 ![1] bcast_S64_S1x64_1),
    StableHlo.unary main_v33 main_v34 (broadcastInDim S100000x64 ![0, 1] bcast_S1x64_S100000x64_0_1),
    StableHlo.binary main_v24 main_v34 main_v35 subf,
    StableHlo.nullary main_cst_6 (constant S_ .f32 0x3727C5AC#32),
    StableHlo.unary main_cst_6 main_v36 (broadcastInDim S64 ![] bcast_S_S64),
    StableHlo.binary main_v32 main_v36 main_v37 addf,
    StableHlo.unary main_v37 main_v38 (Host.rsqrt),
    StableHlo.unary main_v38 main_v39 (broadcastInDim S1x64 ![1] bcast_S64_S1x64_1),
    StableHlo.unary main_v39 main_v40 (broadcastInDim S100000x64 ![0, 1] bcast_S1x64_S100000x64_0_1),
    StableHlo.binary main_v35 main_v40 main_v41 mulf,
    StableHlo.unary main_v26 main_v42 (broadcastInDim S1x64 ![1] bcast_S64_S1x64_1),
    StableHlo.unary main_v42 main_v43 (broadcastInDim S100000x64 ![0, 1] bcast_S1x64_S100000x64_0_1),
    StableHlo.binary main_v41 main_v43 main_v44 mulf,
    StableHlo.unary main_v28 main_v45 (broadcastInDim S1x64 ![1] bcast_S64_S1x64_1),
    StableHlo.unary main_v45 main_v46 (broadcastInDim S100000x64 ![0, 1] bcast_S1x64_S100000x64_0_1),
    StableHlo.binary main_v44 main_v46 main_v47 addf,
    StableHlo.TRef.nullary main_call2.cst (constant S_ .f32 0x00000000#32),
    StableHlo.TRef.unary main_call2.cst main_call2.v0 (broadcastInDim S100000x64 ![] bcast_S_S100000x64),
    StableHlo.TRef.binary (.of main_v47) main_call2.v0 main_call2.v1 maximumf ]

abbrev opsL1 : List (HloOp τ sig (Elt F)) :=
  [ StableHlo.nullary main_c_7 (constantI S_ 32 0#32),
    StableHlo.unary main_c_7 main_v49 (broadcastInDim S1600000 ![] bcast_S_S1600000),
    StableHlo.binary main_arg0 main_v49 main_v50 (cmpi .slt),
    StableHlo.nullary main_c_8 (constantI S_ 32 100000#32),
    StableHlo.unary main_c_8 main_v51 (broadcastInDim S1600000 ![] bcast_S_S1600000),
    StableHlo.binary main_arg0 main_v51 main_v52 addi,
    StableHlo.ternary main_v50 main_v52 main_arg0 main_v53 select,
    StableHlo.unary main_v53 main_v54 (broadcastInDim S1600000x1 ![0] bcast_S1600000_S1600000x1_0),
    StableHlo.binary main_v48 main_v54 main_v55 (fun x i => Host.gather gather_S100000x64_S1600000x1_S1600000x64_1_0_n_n_0_1_164 x i),
    StableHlo.nullary main_cst_9 (constant S_ .f32 0x00000000#32),
    StableHlo.unary main_cst_9 main_v56 (broadcastInDim S100000x64 ![] bcast_S_S100000x64),
    StableHlo.unary main_arg1 main_v57 (broadcastInDim S1600000x1 ![0] bcast_S1600000_S1600000x1_0),
    StableHlo.ternary main_v56 main_v57 main_v55 main_v58 (fun x i u => Host.scatterAdd scatter_S100000x64_S1600000x1_S1600000x64_1_0_0_1 x i u),
    StableHlo.binary main_v48 main_v58 main_v59 addf,
    StableHlo.unary main_arg6 main_v60 (extractStridedSlice S1x64x64 ![0, 0, 0] · slices_S3x64x64_S1x64x64_0_0_0),
    StableHlo.reshape main_v60 main_v61 rfl shapeCasts_S1x64x64_S64x64,
    StableHlo.unary main_arg7 main_v62 (extractStridedSlice S1x64 ![0, 0] · slices_S3x64_S1x64_0_0),
    StableHlo.reshape main_v62 main_v63 rfl shapeCasts_S1x64_S64,
    StableHlo.unary main_arg8 main_v64 (extractStridedSlice S1x64x64 ![0, 0, 0] · slices_S3x64x64_S1x64x64_0_0_0),
    StableHlo.reshape main_v64 main_v65 rfl shapeCasts_S1x64x64_S64x64,
    StableHlo.unary main_arg9 main_v66 (extractStridedSlice S1x64 ![0, 0] · slices_S3x64_S1x64_0_0),
    StableHlo.reshape main_v66 main_v67 rfl shapeCasts_S1x64_S64,
    StableHlo.binary main_v59 main_v61 main_v68 (fun l r => Host.dotGeneral dot_S100000x64_S64x64_S100000x64_1_0_0_1_n_n none l r),
    StableHlo.unary main_v63 main_v69 (broadcastInDim S1x64 ![1] bcast_S64_S1x64_1),
    StableHlo.unary main_v69 main_v70 (broadcastInDim S100000x64 ![0, 1] bcast_S1x64_S100000x64_0_1),
    StableHlo.binary main_v68 main_v70 main_v71 addf,
    StableHlo.TRef.nullary main_call3.cst (constant S_ .f32 0x00000000#32),
    StableHlo.TRef.unary main_call3.cst main_call3.v0 (broadcastInDim S100000x64 ![] bcast_S_S100000x64),
    StableHlo.TRef.binary (.of main_v71) main_call3.v0 main_call3.v1 maximumf,
    StableHlo.binary main_v72 main_v65 main_v73 (fun l r => Host.dotGeneral dot_S100000x64_S64x64_S100000x64_1_0_0_1_n_n none l r),
    StableHlo.unary main_v67 main_v74 (broadcastInDim S1x64 ![1] bcast_S64_S1x64_1),
    StableHlo.unary main_v74 main_v75 (broadcastInDim S100000x64 ![0, 1] bcast_S1x64_S100000x64_0_1),
    StableHlo.binary main_v73 main_v75 main_v76 addf,
    StableHlo.unary main_arg10 main_v77 (extractStridedSlice S1x64 ![1, 0] · slices_S4x64_S1x64_1_0),
    StableHlo.reshape main_v77 main_v78 rfl shapeCasts_S1x64_S64,
    StableHlo.unary main_arg11 main_v79 (extractStridedSlice S1x64 ![1, 0] · slices_S4x64_S1x64_1_0),
    StableHlo.reshape main_v79 main_v80 rfl shapeCasts_S1x64_S64,
    StableHlo.nullary main_cst_10 (constant S_ .f32 0x00000000#32),
    StableHlo.binary main_v76 main_cst_10 main_v81 (fun x v => Host.reduceAdd x v reducesTo_S100000x64_S64_d0 h_S_),
    StableHlo.nullary main_cst_11 (constant S_ .f32 0x47C35000#32),
    StableHlo.unary main_cst_11 main_v82 (broadcastInDim S64 ![] bcast_S_S64),
    StableHlo.binary main_v81 main_v82 main_v83 (Host.divf),
    StableHlo.nullary main_c_12 (constantI S_ 32 0#32),
    StableHlo.TRef.nullary main_call4.cst (constant S_ .f32 0x00000000#32),
    StableHlo.TRef.binary (.of main_v76) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v76) main_call4.v4 main_call4.v5 subf,
    StableHlo.TRef.binary main_call4.v5 main_call4.v5 main_call4.v6 mulf,
    StableHlo.TRef.unary (.of main_c_12) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v83 main_v85 (broadcastInDim S1x64 ![1] bcast_S64_S1x64_1),
    StableHlo.unary main_v85 main_v86 (broadcastInDim S100000x64 ![0, 1] bcast_S1x64_S100000x64_0_1),
    StableHlo.binary main_v76 main_v86 main_v87 subf,
    StableHlo.nullary main_cst_13 (constant S_ .f32 0x3727C5AC#32),
    StableHlo.unary main_cst_13 main_v88 (broadcastInDim S64 ![] bcast_S_S64),
    StableHlo.binary main_v84 main_v88 main_v89 addf,
    StableHlo.unary main_v89 main_v90 (Host.rsqrt),
    StableHlo.unary main_v90 main_v91 (broadcastInDim S1x64 ![1] bcast_S64_S1x64_1),
    StableHlo.unary main_v91 main_v92 (broadcastInDim S100000x64 ![0, 1] bcast_S1x64_S100000x64_0_1),
    StableHlo.binary main_v87 main_v92 main_v93 mulf,
    StableHlo.unary main_v78 main_v94 (broadcastInDim S1x64 ![1] bcast_S64_S1x64_1),
    StableHlo.unary main_v94 main_v95 (broadcastInDim S100000x64 ![0, 1] bcast_S1x64_S100000x64_0_1),
    StableHlo.binary main_v93 main_v95 main_v96 mulf,
    StableHlo.unary main_v80 main_v97 (broadcastInDim S1x64 ![1] bcast_S64_S1x64_1),
    StableHlo.unary main_v97 main_v98 (broadcastInDim S100000x64 ![0, 1] bcast_S1x64_S100000x64_0_1),
    StableHlo.binary main_v96 main_v98 main_v99 addf,
    StableHlo.TRef.nullary main_call5.cst (constant S_ .f32 0x00000000#32),
    StableHlo.TRef.unary main_call5.cst main_call5.v0 (broadcastInDim S100000x64 ![] bcast_S_S100000x64),
    StableHlo.TRef.binary (.of main_v99) main_call5.v0 main_call5.v1 maximumf ]

abbrev opsL2 : List (HloOp τ sig (Elt F)) :=
  [ StableHlo.nullary main_c_14 (constantI S_ 32 0#32),
    StableHlo.unary main_c_14 main_v101 (broadcastInDim S1600000 ![] bcast_S_S1600000),
    StableHlo.binary main_arg0 main_v101 main_v102 (cmpi .slt),
    StableHlo.nullary main_c_15 (constantI S_ 32 100000#32),
    StableHlo.unary main_c_15 main_v103 (broadcastInDim S1600000 ![] bcast_S_S1600000),
    StableHlo.binary main_arg0 main_v103 main_v104 addi,
    StableHlo.ternary main_v102 main_v104 main_arg0 main_v105 select,
    StableHlo.unary main_v105 main_v106 (broadcastInDim S1600000x1 ![0] bcast_S1600000_S1600000x1_0),
    StableHlo.binary main_v100 main_v106 main_v107 (fun x i => Host.gather gather_S100000x64_S1600000x1_S1600000x64_1_0_n_n_0_1_164 x i),
    StableHlo.nullary main_cst_16 (constant S_ .f32 0x00000000#32),
    StableHlo.unary main_cst_16 main_v108 (broadcastInDim S100000x64 ![] bcast_S_S100000x64),
    StableHlo.unary main_arg1 main_v109 (broadcastInDim S1600000x1 ![0] bcast_S1600000_S1600000x1_0),
    StableHlo.ternary main_v108 main_v109 main_v107 main_v110 (fun x i u => Host.scatterAdd scatter_S100000x64_S1600000x1_S1600000x64_1_0_0_1 x i u),
    StableHlo.binary main_v100 main_v110 main_v111 addf,
    StableHlo.unary main_arg6 main_v112 (extractStridedSlice S1x64x64 ![1, 0, 0] · slices_S3x64x64_S1x64x64_1_0_0),
    StableHlo.reshape main_v112 main_v113 rfl shapeCasts_S1x64x64_S64x64,
    StableHlo.unary main_arg7 main_v114 (extractStridedSlice S1x64 ![1, 0] · slices_S3x64_S1x64_1_0),
    StableHlo.reshape main_v114 main_v115 rfl shapeCasts_S1x64_S64,
    StableHlo.unary main_arg8 main_v116 (extractStridedSlice S1x64x64 ![1, 0, 0] · slices_S3x64x64_S1x64x64_1_0_0),
    StableHlo.reshape main_v116 main_v117 rfl shapeCasts_S1x64x64_S64x64,
    StableHlo.unary main_arg9 main_v118 (extractStridedSlice S1x64 ![1, 0] · slices_S3x64_S1x64_1_0),
    StableHlo.reshape main_v118 main_v119 rfl shapeCasts_S1x64_S64,
    StableHlo.binary main_v111 main_v113 main_v120 (fun l r => Host.dotGeneral dot_S100000x64_S64x64_S100000x64_1_0_0_1_n_n none l r),
    StableHlo.unary main_v115 main_v121 (broadcastInDim S1x64 ![1] bcast_S64_S1x64_1),
    StableHlo.unary main_v121 main_v122 (broadcastInDim S100000x64 ![0, 1] bcast_S1x64_S100000x64_0_1),
    StableHlo.binary main_v120 main_v122 main_v123 addf,
    StableHlo.TRef.nullary main_call6.cst (constant S_ .f32 0x00000000#32),
    StableHlo.TRef.unary main_call6.cst main_call6.v0 (broadcastInDim S100000x64 ![] bcast_S_S100000x64),
    StableHlo.TRef.binary (.of main_v123) main_call6.v0 main_call6.v1 maximumf,
    StableHlo.binary main_v124 main_v117 main_v125 (fun l r => Host.dotGeneral dot_S100000x64_S64x64_S100000x64_1_0_0_1_n_n none l r),
    StableHlo.unary main_v119 main_v126 (broadcastInDim S1x64 ![1] bcast_S64_S1x64_1),
    StableHlo.unary main_v126 main_v127 (broadcastInDim S100000x64 ![0, 1] bcast_S1x64_S100000x64_0_1),
    StableHlo.binary main_v125 main_v127 main_v128 addf,
    StableHlo.unary main_arg10 main_v129 (extractStridedSlice S1x64 ![2, 0] · slices_S4x64_S1x64_2_0),
    StableHlo.reshape main_v129 main_v130 rfl shapeCasts_S1x64_S64,
    StableHlo.unary main_arg11 main_v131 (extractStridedSlice S1x64 ![2, 0] · slices_S4x64_S1x64_2_0),
    StableHlo.reshape main_v131 main_v132 rfl shapeCasts_S1x64_S64,
    StableHlo.nullary main_cst_17 (constant S_ .f32 0x00000000#32),
    StableHlo.binary main_v128 main_cst_17 main_v133 (fun x v => Host.reduceAdd x v reducesTo_S100000x64_S64_d0 h_S_),
    StableHlo.nullary main_cst_18 (constant S_ .f32 0x47C35000#32),
    StableHlo.unary main_cst_18 main_v134 (broadcastInDim S64 ![] bcast_S_S64),
    StableHlo.binary main_v133 main_v134 main_v135 (Host.divf),
    StableHlo.nullary main_c_19 (constantI S_ 32 0#32),
    StableHlo.TRef.nullary main_call7.cst (constant S_ .f32 0x00000000#32),
    StableHlo.TRef.binary (.of main_v128) main_call7.cst main_call7.v0 (fun x v => Host.reduceAdd x v reducesTo_S100000x64_S64_d0 h_S_),
    StableHlo.TRef.unary main_call7.v0 main_call7.v1 (broadcastInDim S1x64 ![1] bcast_S64_S1x64_1),
    StableHlo.TRef.nullary main_call7.cst_0 (constant S_ .f32 0x47C35000#32),
    StableHlo.TRef.unary main_call7.cst_0 main_call7.v2 (broadcastInDim S1x64 ![] bcast_S_S1x64),
    StableHlo.TRef.binary main_call7.v1 main_call7.v2 main_call7.v3 Host.divf,
    StableHlo.TRef.unary main_call7.v3 main_call7.v4 (broadcastInDim S100000x64 ![0, 1] bcast_S1x64_S100000x64_0_1),
    StableHlo.TRef.binary (.of main_v128) main_call7.v4 main_call7.v5 subf,
    StableHlo.TRef.binary main_call7.v5 main_call7.v5 main_call7.v6 mulf,
    StableHlo.TRef.unary (.of main_c_19) main_call7.v7 (sitofp .f32),
    StableHlo.TRef.nullary main_call7.cst_1 (constant S_ .f32 0x47C35000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S100000x64_S64_d0 h_S_),
    StableHlo.TRef.unary main_call7.v8 main_call7.v10 (broadcastInDim S64 ![] bcast_S_S64),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S64 ![] bcast_S_S64),
    StableHlo.TRef.ternary main_call7.v12 main_call7.v11 main_call7.call0.v1 main_call7.call0.v2 (fun p a b => select (broadcastInDim S64 ![] bcast_S_S64 p) a b),
    StableHlo.unary main_v135 main_v137 (broadcastInDim S1x64 ![1] bcast_S64_S1x64_1),
    StableHlo.unary main_v137 main_v138 (broadcastInDim S100000x64 ![0, 1] bcast_S1x64_S100000x64_0_1),
    StableHlo.binary main_v128 main_v138 main_v139 subf,
    StableHlo.nullary main_cst_20 (constant S_ .f32 0x3727C5AC#32),
    StableHlo.unary main_cst_20 main_v140 (broadcastInDim S64 ![] bcast_S_S64),
    StableHlo.binary main_v136 main_v140 main_v141 addf,
    StableHlo.unary main_v141 main_v142 (Host.rsqrt),
    StableHlo.unary main_v142 main_v143 (broadcastInDim S1x64 ![1] bcast_S64_S1x64_1),
    StableHlo.unary main_v143 main_v144 (broadcastInDim S100000x64 ![0, 1] bcast_S1x64_S100000x64_0_1),
    StableHlo.binary main_v139 main_v144 main_v145 mulf,
    StableHlo.unary main_v130 main_v146 (broadcastInDim S1x64 ![1] bcast_S64_S1x64_1),
    StableHlo.unary main_v146 main_v147 (broadcastInDim S100000x64 ![0, 1] bcast_S1x64_S100000x64_0_1),
    StableHlo.binary main_v145 main_v147 main_v148 mulf,
    StableHlo.unary main_v132 main_v149 (broadcastInDim S1x64 ![1] bcast_S64_S1x64_1),
    StableHlo.unary main_v149 main_v150 (broadcastInDim S100000x64 ![0, 1] bcast_S1x64_S100000x64_0_1),
    StableHlo.binary main_v148 main_v150 main_v151 addf,
    StableHlo.TRef.nullary main_call8.cst (constant S_ .f32 0x00000000#32),
    StableHlo.TRef.unary main_call8.cst main_call8.v0 (broadcastInDim S100000x64 ![] bcast_S_S100000x64),
    StableHlo.TRef.binary (.of main_v151) main_call8.v0 main_call8.v1 maximumf ]

abbrev opsL3 : List (HloOp τ sig (Elt F)) :=
  [ StableHlo.nullary main_c_21 (constantI S_ 32 0#32),
    StableHlo.unary main_c_21 main_v153 (broadcastInDim S1600000 ![] bcast_S_S1600000),
    StableHlo.binary main_arg0 main_v153 main_v154 (cmpi .slt),
    StableHlo.nullary main_c_22 (constantI S_ 32 100000#32),
    StableHlo.unary main_c_22 main_v155 (broadcastInDim S1600000 ![] bcast_S_S1600000),
    StableHlo.binary main_arg0 main_v155 main_v156 addi,
    StableHlo.ternary main_v154 main_v156 main_arg0 main_v157 select,
    StableHlo.unary main_v157 main_v158 (broadcastInDim S1600000x1 ![0] bcast_S1600000_S1600000x1_0),
    StableHlo.binary main_v152 main_v158 main_v159 (fun x i => Host.gather gather_S100000x64_S1600000x1_S1600000x64_1_0_n_n_0_1_164 x i),
    StableHlo.nullary main_cst_23 (constant S_ .f32 0x00000000#32),
    StableHlo.unary main_cst_23 main_v160 (broadcastInDim S100000x64 ![] bcast_S_S100000x64),
    StableHlo.unary main_arg1 main_v161 (broadcastInDim S1600000x1 ![0] bcast_S1600000_S1600000x1_0),
    StableHlo.ternary main_v160 main_v161 main_v159 main_v162 (fun x i u => Host.scatterAdd scatter_S100000x64_S1600000x1_S1600000x64_1_0_0_1 x i u),
    StableHlo.binary main_v152 main_v162 main_v163 addf,
    StableHlo.unary main_arg6 main_v164 (extractStridedSlice S1x64x64 ![2, 0, 0] · slices_S3x64x64_S1x64x64_2_0_0),
    StableHlo.reshape main_v164 main_v165 rfl shapeCasts_S1x64x64_S64x64,
    StableHlo.unary main_arg7 main_v166 (extractStridedSlice S1x64 ![2, 0] · slices_S3x64_S1x64_2_0),
    StableHlo.reshape main_v166 main_v167 rfl shapeCasts_S1x64_S64,
    StableHlo.unary main_arg8 main_v168 (extractStridedSlice S1x64x64 ![2, 0, 0] · slices_S3x64x64_S1x64x64_2_0_0),
    StableHlo.reshape main_v168 main_v169 rfl shapeCasts_S1x64x64_S64x64,
    StableHlo.unary main_arg9 main_v170 (extractStridedSlice S1x64 ![2, 0] · slices_S3x64_S1x64_2_0),
    StableHlo.reshape main_v170 main_v171 rfl shapeCasts_S1x64_S64,
    StableHlo.binary main_v163 main_v165 main_v172 (fun l r => Host.dotGeneral dot_S100000x64_S64x64_S100000x64_1_0_0_1_n_n none l r),
    StableHlo.unary main_v167 main_v173 (broadcastInDim S1x64 ![1] bcast_S64_S1x64_1),
    StableHlo.unary main_v173 main_v174 (broadcastInDim S100000x64 ![0, 1] bcast_S1x64_S100000x64_0_1),
    StableHlo.binary main_v172 main_v174 main_v175 addf,
    StableHlo.TRef.nullary main_call9.cst (constant S_ .f32 0x00000000#32),
    StableHlo.TRef.unary main_call9.cst main_call9.v0 (broadcastInDim S100000x64 ![] bcast_S_S100000x64),
    StableHlo.TRef.binary (.of main_v175) main_call9.v0 main_call9.v1 maximumf,
    StableHlo.binary main_v176 main_v169 main_v177 (fun l r => Host.dotGeneral dot_S100000x64_S64x64_S100000x64_1_0_0_1_n_n none l r),
    StableHlo.unary main_v171 main_v178 (broadcastInDim S1x64 ![1] bcast_S64_S1x64_1),
    StableHlo.unary main_v178 main_v179 (broadcastInDim S100000x64 ![0, 1] bcast_S1x64_S100000x64_0_1),
    StableHlo.binary main_v177 main_v179 main_v180 addf,
    StableHlo.unary main_arg10 main_v181 (extractStridedSlice S1x64 ![3, 0] · slices_S4x64_S1x64_3_0),
    StableHlo.reshape main_v181 main_v182 rfl shapeCasts_S1x64_S64,
    StableHlo.unary main_arg11 main_v183 (extractStridedSlice S1x64 ![3, 0] · slices_S4x64_S1x64_3_0),
    StableHlo.reshape main_v183 main_v184 rfl shapeCasts_S1x64_S64,
    StableHlo.nullary main_cst_24 (constant S_ .f32 0x00000000#32),
    StableHlo.binary main_v180 main_cst_24 main_v185 (fun x v => Host.reduceAdd x v reducesTo_S100000x64_S64_d0 h_S_),
    StableHlo.nullary main_cst_25 (constant S_ .f32 0x47C35000#32),
    StableHlo.unary main_cst_25 main_v186 (broadcastInDim S64 ![] bcast_S_S64),
    StableHlo.binary main_v185 main_v186 main_v187 (Host.divf),
    StableHlo.nullary main_c_26 (constantI S_ 32 0#32),
    StableHlo.TRef.nullary main_call10.cst (constant S_ .f32 0x00000000#32),
    StableHlo.TRef.binary (.of main_v180) main_call10.cst main_call10.v0 (fun x v => Host.reduceAdd x v reducesTo_S100000x64_S64_d0 h_S_),
    StableHlo.TRef.unary main_call10.v0 main_call10.v1 (broadcastInDim S1x64 ![1] bcast_S64_S1x64_1),
    StableHlo.TRef.nullary main_call10.cst_0 (constant S_ .f32 0x47C35000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S100000x64 ![0, 1] bcast_S1x64_S100000x64_0_1),
    StableHlo.TRef.binary (.of main_v180) main_call10.v4 main_call10.v5 subf,
    StableHlo.TRef.binary main_call10.v5 main_call10.v5 main_call10.v6 mulf,
    StableHlo.TRef.unary (.of main_c_26) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v187 main_v189 (broadcastInDim S1x64 ![1] bcast_S64_S1x64_1),
    StableHlo.unary main_v189 main_v190 (broadcastInDim S100000x64 ![0, 1] bcast_S1x64_S100000x64_0_1),
    StableHlo.binary main_v180 main_v190 main_v191 subf,
    StableHlo.nullary main_cst_27 (constant S_ .f32 0x3727C5AC#32),
    StableHlo.unary main_cst_27 main_v192 (broadcastInDim S64 ![] bcast_S_S64),
    StableHlo.binary main_v188 main_v192 main_v193 addf,
    StableHlo.unary main_v193 main_v194 (Host.rsqrt),
    StableHlo.unary main_v194 main_v195 (broadcastInDim S1x64 ![1] bcast_S64_S1x64_1),
    StableHlo.unary main_v195 main_v196 (broadcastInDim S100000x64 ![0, 1] bcast_S1x64_S100000x64_0_1),
    StableHlo.binary main_v191 main_v196 main_v197 mulf,
    StableHlo.unary main_v182 main_v198 (broadcastInDim S1x64 ![1] bcast_S64_S1x64_1),
    StableHlo.unary main_v198 main_v199 (broadcastInDim S100000x64 ![0, 1] bcast_S1x64_S100000x64_0_1),
    StableHlo.binary main_v197 main_v199 main_v200 mulf,
    StableHlo.unary main_v184 main_v201 (broadcastInDim S1x64 ![1] bcast_S64_S1x64_1),
    StableHlo.unary main_v201 main_v202 (broadcastInDim S100000x64 ![0, 1] bcast_S1x64_S100000x64_0_1),
    StableHlo.binary main_v200 main_v202 main_v203 addf,
    StableHlo.TRef.nullary main_call11.cst (constant S_ .f32 0x00000000#32),
    StableHlo.TRef.unary main_call11.cst main_call11.v0 (broadcastInDim S100000x64 ![] bcast_S_S100000x64),
    StableHlo.TRef.binary (.of main_v203) main_call11.v0 main_call11.v1 maximumf ]

end Cert.ReferenceIdeal.Val

end
-- ==== Proof.RRun.lean ====
import proofs.«427228_j78975858638933_3_alg».proof.Proof.ROps
import Idealize.ShloMosaic.Lib.StableHlo.Run

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

-- The four parts of @main cut its one line of operations two, three and four steps into a layer.
set_option maxRecDepth 8192 in
set_option maxHeartbeats 4000000 in
theorem part0_eq (c : Dev nD) : main_part0 (F := F) c = seq (opsL0 ++ opsL1.take 2) := by
  simp only [main_part0, fn_relu.body, fn_var.body, fn_where.body, bind_assoc, pure_bind]
  rfl

set_option maxRecDepth 8192 in
set_option maxHeartbeats 4000000 in
theorem part1_eq (c : Dev nD) : main_part1 (F := F) c = seq (opsL1.drop 2 ++ opsL2.take 3) := by
  simp only [main_part1, fn_relu.body, fn_var.body, fn_where.body, bind_assoc, pure_bind]
  rfl

set_option maxRecDepth 8192 in
set_option maxHeartbeats 4000000 in
theorem part2_eq (c : Dev nD) : main_part2 (F := F) c = seq (opsL2.drop 3 ++ opsL3.take 4) := by
  simp only [main_part2, fn_relu.body, fn_var.body, fn_where.body, bind_assoc, pure_bind]
  rfl

set_option maxRecDepth 8192 in
set_option maxHeartbeats 4000000 in
theorem part3_eq (c : Dev nD) : main_part3 (F := F) c = seq (opsL3.drop 4) := by
  simp only [main_part3, fn_relu.body, fn_var.body, fn_where.body, bind_assoc, pure_bind]
  rfl

theorem take_append_drop_append {α : Type*} (l r : List α) (n : ℕ) : l.take n ++ (l.drop n ++ r) = l ++ r := by
  rw [← List.append_assoc, List.take_append_drop]

theorem main_eq (c : Dev nD) : main (F := F) c = seq (opsL0 ++ opsL1 ++ opsL2 ++ opsL3) := by
  have e : (opsL0 ++ opsL1 ++ opsL2 ++ opsL3 : List (HloOp τ sig (Elt F)))
      = (opsL0 ++ opsL1.take 2) ++ ((opsL1.drop 2 ++ opsL2.take 3) ++ ((opsL2.drop 3 ++ opsL3.take 4) ++ opsL3.drop 4)) := by
    simp only [List.append_assoc, take_append_drop_append, List.take_append_drop]
  rw [e, seq_append (opsL0 ++ opsL1.take 2), seq_append (opsL1.drop 2 ++ opsL2.take 3), seq_append (opsL2.drop 3 ++ opsL3.take 4),
    ← part0_eq c, ← part1_eq c, ← part2_eq c, ← part3_eq c]
  rfl

theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

theorem ops_sub : (opsL0 ++ opsL1 ++ opsL2 ++ opsL3 : List (HloOp τ sig (Elt F))).Forall fun op => op.bufs ⊆ tcRefs τ sig := by
  simp only [List.forall_append, List.Forall, nullary_bufs_sub, unary_bufs_sub, binary_bufs_sub, ternary_bufs_sub,
    reshape_bufs_sub, and_self]

theorem ops_fresh : (opsL0 ++ opsL1 ++ opsL2 ++ opsL3 : List (HloOp τ sig (Elt F))).Forall fun op => op.fresh = ∅ := by
  simp only [List.forall_append, List.Forall]; repeat' constructor

-- Every weakly fair execution of @main ends with each buffer at the four layers' operations folded over the launch contents.
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsL3 (after opsL2 (after opsL1 (after opsL0 (launchContents m c)))) (Proc.devRef .tc b) := by
  have h := run_seq (by decide) (by decide) defs main (fun _ => opsL0 ++ opsL1 ++ opsL2 ++ opsL3) main_eq
    (fun _ => ops_sub) m ρ (fun _ => List.forall_iff_forall_mem.mp ops_fresh)
  simp only [after_append] at h
  exact h

end Cert.ReferenceIdeal.Val

end
-- ==== Proof.RStage.lean ====
import proofs.«427228_j78975858638933_3_alg».proof.Proof.ROps
import proofs.«427228_j78975858638933_3_alg».proof.Proof.Net
import proofs.«427228_j78975858638933_3_alg».proof.Proof.LibPlainDot
import Idealize.ShloMosaic.Lib.ValueLayout
import Idealize.ShloMosaic.Lib.IdealHost

noncomputable section

namespace Cert.ReferenceIdeal.Val

open Cert.ReferenceIdeal Cert.ReferenceIdeal.Gen Idealize.ShloMosaic Idealize.ShloMosaic.TcCoe Idealize.ShloMosaic.ValueIdx Idealize.SL.Sem Idealize.ShloMosaic.StableHlo
open scoped BigOperators

def arr2 (f : Fin 100000 → Fin 64 → EReal) : FVec Ideal S100000x64 .f32 := fun idx => f (idx 0) (idx 1)

-- An array is determined by its entries.
theorem eq_arr2 {y : FVec Ideal S100000x64 .f32} {f : Fin 100000 → Fin 64 → EReal} (h : ∀ i j, y (ix2 i j) = f i j) :
    y = arr2 f :=
  funext fun idx => (congrArg y (eq_ix2 idx)).trans (h _ _)

theorem downRows_apply {α : Type} (v : S1x64.Idx → α) (i : Fin 100000) (j : Fin 64) :
    broadcastInDim S100000x64 ![0, 1] bcast_S1x64_S100000x64_0_1 v (ix2 i j) = v (ix2 (0 : Fin 1) j) :=
  broadcastInDim_apply _ _ _ _ _ fun a => by
    match a with
    | ⟨0, _⟩ => rfl
    | ⟨1, _⟩ => rfl

theorem oneRow_apply {α : Type} (v : S64.Idx → α) (j : Fin 64) :
    broadcastInDim S1x64 ![1] bcast_S64_S1x64_1 v (ix2 (0 : Fin 1) j) = v (ix1 j) :=
  broadcastInDim_apply _ _ _ _ _ fun a => by
    match a with
    | ⟨0, _⟩ => rfl

/-- A row of 64 entries repeated down the 100000 rows. -/
def rowB (v : FVec Ideal S64 .f32) : FVec Ideal S100000x64 .f32 :=
  broadcastInDim S100000x64 ![0, 1] bcast_S1x64_S100000x64_0_1 (broadcastInDim S1x64 ![1] bcast_S64_S1x64_1 v)

theorem rowB_apply (v : FVec Ideal S64 .f32) (i : Fin 100000) (j : Fin 64) : rowB v (ix2 i j) = v (ix1 j) :=
  (downRows_apply _ i j).trans (oneRow_apply v j)

def zerosV : FVec Ideal S100000x64 .f32 :=
  broadcastInDim S100000x64 ![] bcast_S_S100000x64 (constant (F := Ideal) S_ .f32 0x00000000#32)

theorem zerosV_apply (i : S100000x64.Idx) : zerosV i = 0 :=
  (broadcastInDim_scalar_apply _ _ _).trans Ideal.ofBits_zero_f32

/-- Column sums. -/
def colSumV (y : FVec Ideal S100000x64 .f32) : FVec Ideal S64 .f32 :=
  Host.reduceAdd y (constant (F := Ideal) S_ .f32 0x00000000#32) reducesTo_S100000x64_S64_d0 h_S_

theorem colSumV_apply (y : FVec Ideal S100000x64 .f32) (j : Fin 64) : colSumV y (ix1 j) = ∑ i : Fin 100000, y (ix2 i j) := by
  have h : S100000x64.Reduces [0] S64 := by decide
  unfold colSumV
  rw [hostReduceAdd_apply, Ideal.hostReduceAdd_single reducesTo_S100000x64_S64_d0 h, constant_apply, Ideal.ofBits_zero_f32, zero_add]
  refine Finset.sum_congr rfl fun i _ => congrArg y ?_
  funext a
  match a with
  | ⟨0, _⟩ => rfl
  | ⟨1, _⟩ => rfl

theorem dot_apply (x : FVec Ideal S100000x64 .f32) (w : FVec Ideal S64x64 .f32) (i : Fin 100000) (k : Fin 64) :
    Host.dotGeneral dot_S100000x64_S64x64_S100000x64_1_0_0_1_n_n none x w (ix2 i k) = ∑ l : Fin 64, x (ix2 i l) * w (ix2 l k) :=
  PlainDot.dotGeneral_apply (M := 100000) (K := 64) (N := 64) none _ x w i k

/-- The perceptron after its first product `u`: bias, clamp at zero, second product, bias. -/
def percR (u : FVec Ideal S100000x64 .f32) (b1 : FVec Ideal S64 .f32) (w2 : FVec Ideal S64x64 .f32) (b2 : FVec Ideal S64 .f32) :
    FVec Ideal S100000x64 .f32 :=
  addf (Host.dotGeneral dot_S100000x64_S64x64_S100000x64_1_0_0_1_n_n none (maximumf (addf u (rowB b1)) zerosV) w2) (rowB b2)

theorem percR_apply (u : FVec Ideal S100000x64 .f32) (b1 : FVec Ideal S64 .f32) (w2 : FVec Ideal S64x64 .f32)
    (b2 : FVec Ideal S64 .f32) (i : Fin 100000) (j : Fin 64) :
    percR u b1 w2 b2 (ix2 i j) = (∑ k : Fin 64, max (u (ix2 i k) + b1 (ix1 k)) 0 * w2 (ix2 k j)) + b2 (ix1 j) := by
  unfold percR
  rw [addf_apply, dot_apply, rowB_apply]
  refine congrArg (· + b2 (ix1 j)) (Finset.sum_congr rfl fun k _ => ?_)
  rw [maximumf_apply, addf_apply, rowB_apply, zerosV_apply]

theorem ofBits_cnt : Ideal.ofBits .f32 0x47C35000#32 = Gin.cnt := by
  unfold Gin.cnt
  simp [Ideal.ofBits, Ideal.ieee, -EReal.coe_mul]; norm_num

/-- Column means: column sums over the number of rows. -/
def meanRowR (y : FVec Ideal S100000x64 .f32) : FVec Ideal S64 .f32 :=
  Host.divf (colSumV y) (broadcastInDim S64 ![] bcast_S_S64 (constant (F := Ideal) S_ .f32 0x47C35000#32))

theorem meanRowR_apply (y : FVec Ideal S100000x64 .f32) (j : Fin 64) :
    meanRowR y (ix1 j) = Gin.meanOf (fun i j => y (ix2 i j)) j := by
  unfold meanRowR Gin.meanOf Gin.colSum
  rw [hostDivf_apply, colSumV_apply, broadcastInDim_scalar_apply, constant_apply, ofBits_cnt]

/-- Deviations from the column means, the means formed on a one-row matrix. -/
def devR (y : FVec Ideal S100000x64 .f32) : FVec Ideal S100000x64 .f32 :=
  subf y (broadcastInDim S100000x64 ![0, 1] bcast_S1x64_S100000x64_0_1
    (Host.divf (broadcastInDim S1x64 ![1] bcast_S64_S1x64_1 (colSumV y))
      (broadcastInDim S1x64 ![] bcast_S_S1x64 (constant (F := Ideal) S_ .f32 0x47C35000#32))))

theorem devR_apply (y : FVec Ideal S100000x64 .f32) (i : Fin 100000) (j : Fin 64) :
    devR y (ix2 i j) = y (ix2 i j) - Gin.meanOf (fun i j => y (ix2 i j)) j := by
  unfold devR Gin.meanOf Gin.colSum
  rw [subf_apply, downRows_apply, hostDivf_apply, oneRow_apply, colSumV_apply, broadcastInDim_scalar_apply, constant_apply, ofBits_cnt]

/-- The variance's divisor: the number of rows less a converted integer zero. -/
def cntR : FVec Ideal S_ .f32 :=
  subf (constant (F := Ideal) S_ .f32 0x47C35000#32) (sitofp .f32 (constantI S_ 32 0#32))

theorem cntR_apply : cntR ix0 = Gin.cnt := by
  unfold cntR
  rw [subf_apply, constant_apply, ofBits_cnt, sitofp_apply, constantI_apply]
  show Gin.cnt - ((((0#32 : BitVec 32).toInt : ℝ)) : EReal) = Gin.cnt
  simp

/-- Column variances: mean squared deviation, chosen by the test that the divisor is positive. -/
def varRowR (y : FVec Ideal S100000x64 .f32) : FVec Ideal S64 .f32 :=
  select (broadcastInDim S64 ![] bcast_S_S64 (cmpf .ogt cntR (constant (F := Ideal) S_ .f32 0x00000000#32)))
    (Host.divf (colSumV (mulf (devR y) (devR y))) (broadcastInDim S64 ![] bcast_S_S64 cntR))
    (broadcastInDim S64 ![] bcast_S_S64 (id (constant (F := Ideal) S_ .f32 0x7FC00000#32)))

theorem varRowR_apply (y : FVec Ideal S100000x64 .f32) (j : Fin 64) :
    varRowR y (ix1 j) = Gin.varR (fun i j => y (ix2 i j)) j := by
  have hc : Ideal.cmp .ogt Gin.cnt 0 = 1#1 := by
    unfold Ideal.cmp Gin.cnt
    simp
  unfold varRowR Gin.varR
  rw [select_apply, broadcastInDim_scalar_apply, cmpf_apply, Ideal.cmpf_def, cntR_apply, constant_apply, Ideal.ofBits_zero_f32, hc, select_one,
    hostDivf_apply, colSumV_apply, broadcastInDim_scalar_apply, cntR_apply]
  refine congrArg (fun s => Ideal.div s Gin.cnt) (Finset.sum_congr rfl fun i _ => ?_)
  rw [mulf_apply, devR_apply]

/-- Batch normalisation: deviations from the mean row times the reciprocal root of variance plus the stabiliser, scaled, shifted, clamped at zero. -/
def bnR (y : FVec Ideal S100000x64 .f32) (g b : FVec Ideal S64 .f32) : FVec Ideal S100000x64 .f32 :=
  maximumf
    (addf
      (mulf
        (mulf (subf y (rowB (meanRowR y)))
          (rowB (Host.rsqrt (addf (varRowR y) (broadcastInDim S64 ![] bcast_S_S64 (constant (F := Ideal) S_ .f32 0x3727C5AC#32))))))
        (rowB g))
      (rowB b))
    zerosV

theorem bnR_apply (y : FVec Ideal S100000x64 .f32) (g b : FVec Ideal S64 .f32) (i : Fin 100000) (j : Fin 64) :
    bnR y g b (ix2 i j) = Gin.normR (fun i j => y (ix2 i j)) (fun j => g (ix1 j)) (fun j => b (ix1 j)) i j := by
  unfold bnR Gin.normR Gin.eps
  rw [maximumf_apply, addf_apply, mulf_apply, mulf_apply, subf_apply, rowB_apply, rowB_apply, rowB_apply, rowB_apply,
    zerosV_apply, meanRowR_apply]
  show max ((((y (ix2 i j) - _) * Ideal.rsqrt (varRowR y (ix1 j) + Ideal.ofBits .f32 0x3727C5AC#32)) * _) + _) 0 = _
  rw [varRowR_apply]

theorem slicesRow {n : ℕ} (L : Fin n) : (⟨2, ![n, 64]⟩ : Shape).Slices ![L.val, 0] S1x64 :=
  ⟨rfl, fun a => by
    match a with
    | ⟨0, _⟩ => exact L.isLt
    | ⟨1, _⟩ => exact Nat.le_refl 64⟩

/-- Row `L` of a stack of length-64 rows, its unit axis dropped. -/
def rowR {n : ℕ} (L : Fin n) (a : FVec Ideal ⟨2, ![n, 64]⟩ .f32) : FVec Ideal S64 .f32 :=
  shapeCast S64 (extractStridedSlice S1x64 ![L.val, 0] a (slicesRow L)) shapeCasts_S1x64_S64

theorem rowR_apply {n : ℕ} (L : Fin n) (a : FVec Ideal ⟨2, ![n, 64]⟩ .f32) (k : Fin 64) : rowR L a (ix1 k) = a (ix2 L k) := by
  rw [rowR, shapeCast_1a_a_apply]
  exact slice2_axis0_apply _ a _ 0 k L rfl

theorem slicesMat : ∀ L : Fin 3, S3x64x64.Slices ![L.val, 0, 0] S1x64x64 := by decide

/-- Matrix `L` of a stack of three 64×64 matrices, its unit axis dropped. -/
def matR (L : Fin 3) (a : FVec Ideal S3x64x64 .f32) : FVec Ideal S64x64 .f32 :=
  shapeCast S64x64 (extractStridedSlice S1x64x64 ![L.val, 0, 0] a (slicesMat L)) shapeCasts_S1x64x64_S64x64

theorem matR_apply (L : Fin 3) (a : FVec Ideal S3x64x64 .f32) (l k : Fin 64) : matR L a (ix2 l k) = a (ix3 L l k) := by
  rw [matR, shapeCast_1ab_ab_apply]
  exact extractStridedSlice_apply _ _ _ _ _ fun ax => by
    match ax with
    | ⟨0, _⟩ => rfl
    | ⟨1, _⟩ => exact (Nat.zero_add _).symm
    | ⟨2, _⟩ => exact (Nat.zero_add _).symm

-- A singleton of a listed reference lies in the list's image.
theorem single_sub_of_mem {y : Ref sig .tc} {L : List (Ref sig .tc)} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

variable (W : Valuation τ sig (Elt Ideal))

/-- The network's parameters as functions of plain indices, read off `W`. -/
def pW : Gin.Params where
  w1_0 k := (W (Proc.devRef .tc main_arg2) : FVec Ideal S1x64 .f32) (ix2 0 k)
  b1_0 k := (W (Proc.devRef .tc main_arg3) : FVec Ideal S64 .f32) (ix1 k)
  w2_0 l k := (W (Proc.devRef .tc main_arg4) : FVec Ideal S64x64 .f32) (ix2 l k)
  b2_0 k := (W (Proc.devRef .tc main_arg5) : FVec Ideal S64 .f32) (ix1 k)
  ws1 L l k := (W (Proc.devRef .tc main_arg6) : FVec Ideal S3x64x64 .f32) (ix3 L l k)
  bs1 L k := (W (Proc.devRef .tc main_arg7) : FVec Ideal S3x64 .f32) (ix2 L k)
  ws2 L l k := (W (Proc.devRef .tc main_arg8) : FVec Ideal S3x64x64 .f32) (ix3 L l k)
  bs2 L k := (W (Proc.devRef .tc main_arg9) : FVec Ideal S3x64 .f32) (ix2 L k)
  gam L k := (W (Proc.devRef .tc main_arg10) : FVec Ideal S4x64 .f32) (ix2 L k)
  bet L k := (W (Proc.devRef .tc main_arg11) : FVec Ideal S4x64 .f32) (ix2 L k)

end Cert.ReferenceIdeal.Val

end
-- ==== Proof.RLayer0.lean ====
import proofs.«427228_j78975858638933_3_alg».proof.Proof.RStage

noncomputable section

namespace Cert.ReferenceIdeal.Val

open Cert.ReferenceIdeal Cert.ReferenceIdeal.Gen Idealize.ShloMosaic Idealize.ShloMosaic.TcCoe Idealize.ShloMosaic.ValueIdx Idealize.SL.Sem Idealize.ShloMosaic.StableHlo

def aggdegR (src dst : IVec S1600000 32) : FVec Ideal S100000x1 .f32 :=
  addf
    (broadcastInDim S100000x1 ![0] bcast_S100000_S100000x1_0
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32))))
    (Host.scatterAdd scatter_S100000x1_S1600000x1_S1600000x1_1_0_0_1
      (broadcastInDim S100000x1 ![] bcast_S_S100000x1 (constant (F := Ideal) S_ .f32 0x00000000#32))
      (broadcastInDim S1600000x1 ![0] bcast_S1600000_S1600000x1_0 dst)
      (Host.gather gather_S100000x1_S1600000x1_S1600000x1_1_0_n_n_0_1_11
        (broadcastInDim S100000x1 ![0] bcast_S100000_S100000x1_0
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32))))
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32)))
            src))))

variable (W : Valuation τ sig (Elt Ideal))

/-- The one-column input of the first layer, from `W`'s edge lists. -/
def x0W : Fin 100000 → EReal :=
  fun i => aggdegR (W (Proc.devRef .tc main_arg0)) (W (Proc.devRef .tc main_arg1)) (ix2 i 0)

-- Contracting a single coordinate leaves one product.
theorem dot1_apply (x : FVec Ideal S100000x1 .f32) (w : FVec Ideal S1x64 .f32) (i : Fin 100000) (k : Fin 64) :
    Host.dotGeneral dot_S100000x1_S1x64_S100000x64_1_0_0_1_n_n none x w (ix2 i k) = x (ix2 i 0) * w (ix2 0 k) :=
  (PlainDot.dotGeneral_apply (M := 100000) (K := 1) (N := 64) none .single x w i k).trans (Fin.sum_univ_one _)

/-- The first layer's first product: the first features times the one-row weights. -/
def u0W : FVec Ideal S100000x64 .f32 :=
  Host.dotGeneral (φ₂ := .f32) dot_S100000x1_S1x64_S100000x64_1_0_0_1_n_n none
    (aggdegR (W (Proc.devRef .tc main_arg0)) (W (Proc.devRef .tc main_arg1))) (W (Proc.devRef .tc main_arg2))

-- Running a prefix and then the rest is running the whole list.
private theorem after_drop_take : ∀ (n : ℕ) (ops : List (HloOp τ sig (Elt Ideal))) (V : Valuation τ sig (Elt Ideal)),
    after (ops.drop n) (after (ops.take n) V) = after ops V
  | 0, _, _ => rfl
  | _ + 1, [], _ => rfl
  | n + 1, op :: ops, V => after_drop_take n ops (op.result V)

private theorem stage_norm (V : Valuation τ sig (Elt Ideal)) :
    (after (List.drop 32 opsL0) V (Proc.devRef .tc main_v48) : FVec Ideal S100000x64 .f32)
      = bnR (V (Proc.devRef .tc main_v24)) (rowR (0 : Fin 4) (V (Proc.devRef .tc main_arg10))) (rowR (0 : Fin 4) (V (Proc.devRef .tc main_arg11))) := by
  show after (List.drop 32 opsL0) V (Proc.devRef .tc main_v48) = _
  simp only [List.drop_succ_cons, List.drop_zero]
  after_results_simp
  rfl

private theorem stage_mlp :
    (after (List.take 32 opsL0) W (Proc.devRef .tc main_v24) : FVec Ideal S100000x64 .f32)
      = percR (u0W W) (W (Proc.devRef .tc main_arg3)) (W (Proc.devRef .tc main_arg4)) (W (Proc.devRef .tc main_arg5)) := by
  have h19 : (after (List.take 25 (List.take 32 opsL0)) W (Proc.devRef .tc main_v19) : FVec Ideal S100000x64 .f32)
      = addf (u0W W) (rowB (W (Proc.devRef .tc main_arg3))) := by
    show after (List.take 25 (List.take 32 opsL0)) W (Proc.devRef .tc main_v19) = _
    unfold u0W aggdegR rowB
    simp only [List.take_succ_cons, List.take_zero]
    after_results_simp
  have h4 : after (List.take 25 (List.take 32 opsL0)) W (Proc.devRef .tc main_arg4) = W (Proc.devRef .tc main_arg4) := by
    simp only [List.take_succ_cons, List.take_zero]
    after_results_simp
  have h5 : after (List.take 25 (List.take 32 opsL0)) W (Proc.devRef .tc main_arg5) = W (Proc.devRef .tc main_arg5) := by
    simp only [List.take_succ_cons, List.take_zero]
    after_results_simp
  show after (List.take 32 opsL0) W (Proc.devRef .tc main_v24) = _
  rw [← after_drop_take 25 (List.take 32 opsL0) W]
  generalize after (List.take 25 (List.take 32 opsL0)) W = V at h19 h4 h5 ⊢
  simp only [List.take_succ_cons, List.take_zero, List.drop_succ_cons, List.drop_zero]
  after_results_simp
  simp only [TRef.ofBuf, TRef.toBuf, cast_eq]
  rw [h19, h4, h5]
  rfl

private theorem stage_mlp_keep10 :
    after (List.take 32 opsL0) W (Proc.devRef .tc main_arg10) = W (Proc.devRef .tc main_arg10) := by
  simp only [List.take_succ_cons, List.take_zero]
  after_results_simp

private theorem stage_mlp_keep11 :
    after (List.take 32 opsL0) W (Proc.devRef .tc main_arg11) = W (Proc.devRef .tc main_arg11) := by
  simp only [List.take_succ_cons, List.take_zero]
  after_results_simp

theorem layer0_out :
    (after opsL0 W (Proc.devRef .tc main_v48) : FVec Ideal S100000x64 .f32) = arr2 (Gin.layer0 Gin.normR (x0W W) (pW W)) :=
  eq_arr2 fun i j => by
    rw [← after_drop_take 32 opsL0 W, stage_norm, stage_mlp, stage_mlp_keep10, stage_mlp_keep11, bnR_apply]
    simp only [percR_apply, u0W, dot1_apply, rowR_apply]
    rfl

def writesL0 : List (Ref sig .tc) :=
  [main_cst, main_v0, main_cst_0, main_v1, main_v2, main_v3, main_v4, main_c, main_v5, main_v6, main_c_1,
   main_v7, main_v8, main_v9, main_v10, main_v11, main_cst_2, main_v12, main_v13, main_v14, main_v15, main_v16,
   main_v17, main_v18, main_v19, main_call0_cst, main_call0_v0, main_v20, main_v21, main_v22, main_v23, main_v24,
   main_v25, main_v26, main_v27, main_v28, main_cst_3, main_v29, main_cst_4, main_v30, main_v31, main_c_5,
   main_call1_cst, main_call1_v0, main_call1_v1, main_call1_cst_0, main_call1_v2, main_call1_v3, main_call1_v4,
   main_call1_v5, main_call1_v6, main_call1_v7, main_call1_cst_1, main_call1_v8, main_call1_cst_2, main_call1_v9,
   main_call1_v10, main_call1_v11, main_call1_cst_3, main_call1_v12, main_call1_cst_4, main_call1_call0_v0,
   main_call1_call0_v1, main_v32, main_v33, main_v34, main_v35, main_cst_6, main_v36, main_v37, main_v38,
   main_v39, main_v40, main_v41, main_v42, main_v43, main_v44, main_v45, main_v46, main_v47, main_call2_cst,
   main_call2_v0, main_v48]

theorem layer0_keep (r : Ref sig .tc) (hr : r ∉ writesL0) : after opsL0 W (Proc.devRef .tc r) = W (Proc.devRef .tc r) := by
  refine after_of_writes_sub (W := writesL0) opsL0 W ?_ hr
  simp only [List.Forall, nullary_writes, unary_writes, binary_writes, ternary_writes, reshape_writes]
  and_intros <;> exact single_sub_of_mem (by decide)

end Cert.ReferenceIdeal.Val

end
-- ==== Proof.RLayer1.lean ====
import proofs.«427228_j78975858638933_3_alg».proof.Proof.RStage

noncomputable section

namespace Cert.ReferenceIdeal.Val

open Cert.ReferenceIdeal Cert.ReferenceIdeal.Gen Idealize.ShloMosaic Idealize.ShloMosaic.TcCoe Idealize.ShloMosaic.ValueIdx Idealize.SL.Sem Idealize.ShloMosaic.StableHlo

def aggR (h : FVec Ideal S100000x64 .f32) (src dst : IVec S1600000 32) : FVec Ideal S100000x64 .f32 :=
  addf h
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32)))
            src))))

variable (W : Valuation τ sig (Elt Ideal))

/-- Aggregation over `W`'s edge lists, on plain index functions. -/
def aggFW (f : Fin 100000 → Fin 64 → EReal) : Fin 100000 → Fin 64 → EReal :=
  fun i l => aggR (arr2 f) (W (Proc.devRef .tc main_arg0)) (W (Proc.devRef .tc main_arg1)) (ix2 i l)

/-- Later layer `L + 1` on whole arrays: aggregation, perceptron on slices `L` of the stacked weights, normalisation with rows `L + 1`. -/
def layerR (L : Fin 3) (h : FVec Ideal S100000x64 .f32) : FVec Ideal S100000x64 .f32 :=
  bnR
    (percR
      (Host.dotGeneral dot_S100000x64_S64x64_S100000x64_1_0_0_1_n_n none
        (aggR h (W (Proc.devRef .tc main_arg0)) (W (Proc.devRef .tc main_arg1))) (matR L (W (Proc.devRef .tc main_arg6))))
      (rowR L (W (Proc.devRef .tc main_arg7))) (matR L (W (Proc.devRef .tc main_arg8))) (rowR L (W (Proc.devRef .tc main_arg9))))
    (rowR L.succ (W (Proc.devRef .tc main_arg10))) (rowR L.succ (W (Proc.devRef .tc main_arg11)))

theorem layerR_apply (L : Fin 3) (f : Fin 100000 → Fin 64 → EReal) :
    layerR W L (arr2 f) = arr2 (Gin.layerN Gin.normR L (aggFW W f) (pW W)) :=
  eq_arr2 fun i j => by
    unfold layerR
    rw [bnR_apply]
    simp only [percR_apply, dot_apply, matR_apply, rowR_apply]
    rfl

theorem layer1_stages :
    (after opsL1 W (Proc.devRef .tc main_v100) : FVec Ideal S100000x64 .f32) = layerR W 0 (W (Proc.devRef .tc main_v48)) := by
  show after opsL1 W (Proc.devRef .tc main_v100) = _
  after_results_simp
  simp only [TRef.ofBuf, TRef.toBuf, cast_eq]
  rfl

def writesL1 : List (Ref sig .tc) :=
  [main_c_7, main_v49, main_v50, main_c_8, main_v51, main_v52, main_v53, main_v54, main_v55, main_cst_9, main_v56, main_v57, main_v58, main_v59, main_v60, main_v61, main_v62, main_v63, main_v64, main_v65, main_v66, main_v67, main_v68, main_v69, main_v70, main_v71, main_call3_cst, main_call3_v0, main_v72, main_v73, main_v74, main_v75, main_v76, main_v77, main_v78, main_v79, main_v80, main_cst_10, main_v81, main_cst_11, main_v82, main_v83, main_c_12, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v84, main_v85, main_v86, main_v87, main_cst_13, main_v88, main_v89, main_v90, main_v91, main_v92, main_v93, main_v94, main_v95, main_v96, main_v97, main_v98, main_v99, main_call5_cst, main_call5_v0, main_v100]

theorem layer1_keep (r : Ref sig .tc) (hr : r ∉ writesL1) : after opsL1 W (Proc.devRef .tc r) = W (Proc.devRef .tc r) := by
  refine after_of_writes_sub (W := writesL1) opsL1 W ?_ hr
  simp only [List.Forall, nullary_writes, unary_writes, binary_writes, ternary_writes, reshape_writes]
  and_intros <;> exact single_sub_of_mem (by decide)

end Cert.ReferenceIdeal.Val

end
-- ==== Proof.RLayer2.lean ====
import proofs.«427228_j78975858638933_3_alg».proof.Proof.RLayer1

noncomputable section

namespace Cert.ReferenceIdeal.Val

open Cert.ReferenceIdeal Cert.ReferenceIdeal.Gen Idealize.ShloMosaic Idealize.ShloMosaic.TcCoe Idealize.ShloMosaic.ValueIdx Idealize.SL.Sem Idealize.ShloMosaic.StableHlo

variable (W : Valuation τ sig (Elt Ideal))

theorem layer2_stages :
    (after opsL2 W (Proc.devRef .tc main_v152) : FVec Ideal S100000x64 .f32) = layerR W 1 (W (Proc.devRef .tc main_v100)) := by
  show after opsL2 W (Proc.devRef .tc main_v152) = _
  after_results_simp
  simp only [TRef.ofBuf, TRef.toBuf, cast_eq]
  rfl

def writesL2 : List (Ref sig .tc) :=
  [main_c_14, main_v101, main_v102, main_c_15, main_v103, main_v104, main_v105, main_v106, main_v107, main_cst_16, main_v108, main_v109, main_v110, main_v111, main_v112, main_v113, main_v114, main_v115, main_v116, main_v117, main_v118, main_v119, main_v120, main_v121, main_v122, main_v123, main_call6_cst, main_call6_v0, main_v124, main_v125, main_v126, main_v127, main_v128, main_v129, main_v130, main_v131, main_v132, main_cst_17, main_v133, main_cst_18, main_v134, main_v135, main_c_19, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v136, main_v137, main_v138, main_v139, main_cst_20, main_v140, main_v141, main_v142, main_v143, main_v144, main_v145, main_v146, main_v147, main_v148, main_v149, main_v150, main_v151, main_call8_cst, main_call8_v0, main_v152]

theorem layer2_keep (r : Ref sig .tc) (hr : r ∉ writesL2) : after opsL2 W (Proc.devRef .tc r) = W (Proc.devRef .tc r) := by
  refine after_of_writes_sub (W := writesL2) opsL2 W ?_ hr
  simp only [List.Forall, nullary_writes, unary_writes, binary_writes, ternary_writes, reshape_writes]
  and_intros <;> exact single_sub_of_mem (by decide)

end Cert.ReferenceIdeal.Val

end
-- ==== Proof.RLayer3.lean ====
import proofs.«427228_j78975858638933_3_alg».proof.Proof.RLayer1

noncomputable section

namespace Cert.ReferenceIdeal.Val

open Cert.ReferenceIdeal Cert.ReferenceIdeal.Gen Idealize.ShloMosaic Idealize.ShloMosaic.TcCoe Idealize.ShloMosaic.ValueIdx Idealize.SL.Sem Idealize.ShloMosaic.StableHlo

variable (W : Valuation τ sig (Elt Ideal))

theorem layer3_stages :
    (after opsL3 W (Proc.devRef .tc main_v204) : FVec Ideal S100000x64 .f32) = layerR W 2 (W (Proc.devRef .tc main_v152)) := by
  show after opsL3 W (Proc.devRef .tc main_v204) = _
  after_results_simp
  simp only [TRef.ofBuf, TRef.toBuf, cast_eq]
  rfl

def writesL3 : List (Ref sig .tc) :=
  [main_c_21, main_v153, main_v154, main_c_22, main_v155, main_v156, main_v157, main_v158, main_v159, main_cst_23, main_v160, main_v161, main_v162, main_v163, main_v164, main_v165, main_v166, main_v167, main_v168, main_v169, main_v170, main_v171, main_v172, main_v173, main_v174, main_v175, main_call9_cst, main_call9_v0, main_v176, main_v177, main_v178, main_v179, main_v180, main_v181, main_v182, main_v183, main_v184, main_cst_24, main_v185, main_cst_25, main_v186, main_v187, main_c_26, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v188, main_v189, main_v190, main_v191, main_cst_27, main_v192, main_v193, main_v194, main_v195, main_v196, main_v197, main_v198, main_v199, main_v200, main_v201, main_v202, main_v203, main_call11_cst, main_call11_v0, main_v204]

theorem layer3_keep (r : Ref sig .tc) (hr : r ∉ writesL3) : after opsL3 W (Proc.devRef .tc r) = W (Proc.devRef .tc r) := by
  refine after_of_writes_sub (W := writesL3) opsL3 W ?_ hr
  simp only [List.Forall, nullary_writes, unary_writes, binary_writes, ternary_writes, reshape_writes]
  and_intros <;> exact single_sub_of_mem (by decide)

end Cert.ReferenceIdeal.Val

end
-- ==== Proof.RChain.lean ====
import proofs.«427228_j78975858638933_3_alg».proof.Proof.RLayer0
import proofs.«427228_j78975858638933_3_alg».proof.Proof.RLayer2
import proofs.«427228_j78975858638933_3_alg».proof.Proof.RLayer3

noncomputable section

namespace Cert.ReferenceIdeal.Val

open Cert.ReferenceIdeal Cert.ReferenceIdeal.Gen Idealize.ShloMosaic Idealize.ShloMosaic.TcCoe Idealize.ShloMosaic.ValueIdx Idealize.SL.Sem Idealize.ShloMosaic.StableHlo

section Chain

/-- What a later layer reads besides the previous layer's output: the edge lists and the stacked parameters. -/
def argRefs : List (Ref sig .tc) :=
  [main_arg0, main_arg1, main_arg6, main_arg7, main_arg8, main_arg9, main_arg10, main_arg11]

theorem argRefs_kept : ∀ r ∈ argRefs, r ∉ writesL0 ∧ r ∉ writesL1 ∧ r ∉ writesL2 := by decide

-- A later layer depends on the contents only through the edge lists and the stacked parameters.
theorem layerR_congr {V W : Valuation τ sig (Elt Ideal)}
    (h : ∀ r ∈ argRefs, V (Proc.devRef .tc r) = W (Proc.devRef .tc r)) : layerR V = layerR W := by
  funext L x
  unfold layerR
  rw [h main_arg0 (by decide), h main_arg1 (by decide), h main_arg6 (by decide), h main_arg7 (by decide),
    h main_arg8 (by decide), h main_arg9 (by decide), h main_arg10 (by decide), h main_arg11 (by decide)]

variable (W : Valuation τ sig (Elt Ideal))

theorem kept0 (r : Ref sig .tc) (hr : r ∈ argRefs) : after opsL0 W (Proc.devRef .tc r) = W (Proc.devRef .tc r) :=
  layer0_keep W r (argRefs_kept r hr).1

theorem kept1 (r : Ref sig .tc) (hr : r ∈ argRefs) :
    after opsL1 (after opsL0 W) (Proc.devRef .tc r) = W (Proc.devRef .tc r) :=
  (layer1_keep _ r (argRefs_kept r hr).2.1).trans (kept0 W r hr)

theorem kept2 (r : Ref sig .tc) (hr : r ∈ argRefs) :
    after opsL2 (after opsL1 (after opsL0 W)) (Proc.devRef .tc r) = W (Proc.devRef .tc r) :=
  (layer2_keep _ r (argRefs_kept r hr).2.2).trans (kept1 W r hr)

theorem chain1 :
    (after opsL1 (after opsL0 W) (Proc.devRef .tc main_v100) : FVec Ideal S100000x64 .f32)
      = arr2 (Gin.layerN Gin.normR 0 (aggFW W (Gin.layer0 Gin.normR (x0W W) (pW W))) (pW W)) := by
  rw [layer1_stages, layer0_out, layerR_congr (kept0 W), layerR_apply]

theorem chain2 :
    (after opsL2 (after opsL1 (after opsL0 W)) (Proc.devRef .tc main_v152) : FVec Ideal S100000x64 .f32)
      = arr2 (Gin.layerN Gin.normR 1 (aggFW W (Gin.layerN Gin.normR 0 (aggFW W (Gin.layer0 Gin.normR (x0W W) (pW W))) (pW W))) (pW W)) := by
  rw [layer2_stages, chain1, layerR_congr (kept1 W), layerR_apply]

theorem chain3 :
    (after opsL3 (after opsL2 (after opsL1 (after opsL0 W))) (Proc.devRef .tc main_v204) : FVec Ideal S100000x64 .f32)
      = arr2 (Gin.net Gin.normR (x0W W) (aggFW W) (pW W)) := by
  rw [layer3_stages, chain2, layerR_congr (kept2 W), layerR_apply]
  rfl

end Chain

section Launch

variable (m' : (ℓ : Loc nD τ sig) → Buf (Elt Ideal) ℓ) (c : Dev nD)

def pR : Gin.Params where
  w1_0 k := (m' ((c.tc : Thread nD τ).loc main_arg2) : FVec Ideal S1x64 .f32) (ix2 0 k)
  b1_0 k := (m' ((c.tc : Thread nD τ).loc main_arg3) : FVec Ideal S64 .f32) (ix1 k)
  w2_0 l k := (m' ((c.tc : Thread nD τ).loc main_arg4) : FVec Ideal S64x64 .f32) (ix2 l k)
  b2_0 k := (m' ((c.tc : Thread nD τ).loc main_arg5) : FVec Ideal S64 .f32) (ix1 k)
  ws1 L l k := (m' ((c.tc : Thread nD τ).loc main_arg6) : FVec Ideal S3x64x64 .f32) (ix3 L l k)
  bs1 L k := (m' ((c.tc : Thread nD τ).loc main_arg7) : FVec Ideal S3x64 .f32) (ix2 L k)
  ws2 L l k := (m' ((c.tc : Thread nD τ).loc main_arg8) : FVec Ideal S3x64x64 .f32) (ix3 L l k)
  bs2 L k := (m' ((c.tc : Thread nD τ).loc main_arg9) : FVec Ideal S3x64 .f32) (ix2 L k)
  gam L k := (m' ((c.tc : Thread nD τ).loc main_arg10) : FVec Ideal S4x64 .f32) (ix2 L k)
  bet L k := (m' ((c.tc : Thread nD τ).loc main_arg11) : FVec Ideal S4x64 .f32) (ix2 L k)

def x0R : Fin 100000 → EReal :=
  fun i => aggdegR (m' ((c.tc : Thread nD τ).loc main_arg0)) (m' ((c.tc : Thread nD τ).loc main_arg1)) (ix2 i 0)

def aggFR (f : Fin 100000 → Fin 64 → EReal) : Fin 100000 → Fin 64 → EReal :=
  fun i l => aggR (arr2 f) (m' ((c.tc : Thread nD τ).loc main_arg0)) (m' ((c.tc : Thread nD τ).loc main_arg1)) (ix2 i l)

theorem ref_result (i : Fin 100000) (j : Fin 64) :
    (after opsL3 (after opsL2 (after opsL1 (after opsL0 (launchContents m' c)))) (Proc.devRef .tc main_v204) : FVec Ideal S100000x64 .f32) (ix2 i j)
      = Gin.net Gin.normR (x0R m' c) (aggFR m' c) (pR m' c) i j :=
  congrFun (chain3 (launchContents m' c)) (ix2 i j)

end Launch

end Cert.ReferenceIdeal.Val

end
-- ==== Proof.Finite.lean ====
import proofs.«427228_j78975858638933_3_alg».proof.Pre_finite_inputs
import proofs.«427228_j78975858638933_3_alg».proof.Proof.LibFinite
import Idealize.ShloMosaic.Lib.ReduceAll
import Idealize.ShloMosaic.Lib.ValueIdx

noncomputable section

namespace Cert.Finite

open Idealize.ShloMosaic Cert.Pre_finite_inputs Cert.Lib

theorem ofBits_inf : Ideal.ofBits .f32 0x7F800000#32 = (⊤ : EReal) := by
  simp [Ideal.ofBits, Ideal.ieee]

theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

local instance : Subsingleton S_.Idx := ⟨fun a b => funext fun d => d.elim0⟩

theorem allReal_of_reduce {s : Shape} {axes : List (Fin s.rank)} (x : FVec Ideal s .f32)
    (bc : S_.BroadcastsInDim s (![] : Fin 0 → Fin s.rank)) (hr : s.ReducesTo axes S_) (hu : 0 < S_.numel)
    (init : IVec S_ 1) (j : S_.Idx)
    (e : Host.reduce IntOp.andi
        (cmpf .olt (Host.absf x) (broadcastInDim s ![] bc (constant (F := Ideal) S_ .f32 0x7F800000#32))) init hr hu j
          = 1#1) :
    AllReal x := by
  intro i
  have hi := Host.reduce_andi_all _ init hr hu j e i
  exact real_of_abs_lt (x i) hi

variable [Cert.Pre_finite_inputs.Facts]

theorem real_of_fn (a0 a1 : IVec S1600000 32) (a2 : FVec Ideal S1x64 .f32) (a3 : FVec Ideal S64 .f32)
    (a4 : FVec Ideal S64x64 .f32) (a5 : FVec Ideal S64 .f32) (a6 : FVec Ideal S3x64x64 .f32) (a7 : FVec Ideal S3x64 .f32)
    (a8 : FVec Ideal S3x64x64 .f32) (a9 : FVec Ideal S3x64 .f32) (a10 a11 : FVec Ideal S4x64 .f32)
    (h : Cert.Pre_finite_inputs.fn (F := Ideal) a0 a1 a2 a3 a4 a5 a6 a7 a8 a9 a10 a11 = fun _ => 1#1) :
    AllReal a2 ∧ AllReal a3 ∧ AllReal a4 ∧ AllReal a5 ∧ AllReal a6 ∧ AllReal a7 ∧ AllReal a8 ∧ AllReal a9
      ∧ AllReal a10 ∧ AllReal a11 := by

  have h0 := congrFun h ValueIdx.ix0
  dsimp only [fn, fn_part1, fn_part2, Idealize.ShloMosaic.andi] at h0
  simp only [IntOp.andi_eq_one] at h0
  obtain ⟨⟨⟨⟨⟨⟨⟨⟨⟨h2, h3⟩, h4⟩, h5⟩, h6⟩, h7⟩, h8⟩, h9⟩, h10⟩, h11⟩ := h0
  exact ⟨allReal_of_reduce a2 _ _ _ _ _ h2, allReal_of_reduce a3 _ _ _ _ _ h3, allReal_of_reduce a4 _ _ _ _ _ h4,
    allReal_of_reduce a5 _ _ _ _ _ h5, allReal_of_reduce a6 _ _ _ _ _ h6, allReal_of_reduce a7 _ _ _ _ _ h7,
    allReal_of_reduce a8 _ _ _ _ _ h8, allReal_of_reduce a9 _ _ _ _ _ h9, allReal_of_reduce a10 _ _ _ _ _ h10,
    allReal_of_reduce a11 _ _ _ _ _ h11⟩

end Cert.Finite

end
-- ==== Proof.Final.lean ====
import proofs.«427228_j78975858638933_3_alg».proof.Defs
import proofs.«427228_j78975858638933_3_alg».proof.Proof.Gen.Kernel.Frame
import proofs.«427228_j78975858638933_3_alg».proof.Proof.Gen.KernelIdeal.Frame
import proofs.«427228_j78975858638933_3_alg».proof.Proof.Gen.ReferenceIdeal
import proofs.«427228_j78975858638933_3_alg».proof.Proof.Gen.Pre_finite_inputs
import proofs.«427228_j78975858638933_3_alg».proof.Proof.KRun
import proofs.«427228_j78975858638933_3_alg».proof.Proof.KParams
import proofs.«427228_j78975858638933_3_alg».proof.Proof.KFinal
import proofs.«427228_j78975858638933_3_alg».proof.Proof.RRun
import proofs.«427228_j78975858638933_3_alg».proof.Proof.RChain
import proofs.«427228_j78975858638933_3_alg».proof.Proof.Finite
import proofs.«427228_j78975858638933_3_alg».proof.Proof.Net
import Idealize.ShloMosaic.Lib.StableHlo.Run
import Idealize.ShloMosaic.Lib.ValueIdx

noncomputable section

namespace Cert.Proof.GinClaims

open Idealize.ShloMosaic Idealize.ShloMosaic.TcCoe Idealize.ShloMosaic.ValueIdx Idealize.SL.Sem
open Idealize.ShloMosaic.StableHlo (after launchContents)
open Cert.Gin (Real1 Real2)
open Cert.KernelIdeal.Val (aggK aggdegK x0K aggFK pK kernel_result aggK_real aggdegK_real)
open Cert.ReferenceIdeal.Val (aggR aggdegR x0R aggFR pR ref_result run_main opsL0 opsL1 opsL2 opsL3 writesL0 writesL1 writesL2
  writesL3 layer0_keep layer1_keep layer2_keep layer3_keep)
open Cert.ReferenceIdeal (main_arg0 main_arg1 main_arg2 main_arg3 main_arg4 main_arg5 main_arg6 main_arg7 main_arg8 main_arg9 main_arg10 main_arg11)

-- Both programs spell the aggregation step, and the first features, with the same operations over the same records.
theorem agg_eq : aggK = aggR := by
  unfold aggK aggR
  rfl

theorem aggdeg_eq : aggdegK = aggdegR := by
  unfold aggdegK aggdegR
  rfl

-- Each parameter is an entry of a float argument, and the precondition bounds every such entry below +inf.
theorem pK_real (m : (ℓ : Loc Cert.KernelIdeal.nD Cert.KernelIdeal.τ Cert.KernelIdeal.sig) → Buf (Elt Ideal) ℓ)
    (hpre : Cert.Pre_KernelIdeal m) (c : Dev Cert.KernelIdeal.nD) : (pK m c).Real := by
  obtain ⟨h2, h3, h4, h5, h6, h7, h8, h9, h10, h11⟩ := Cert.Finite.real_of_fn _ _ _ _ _ _ _ _ _ _ _ _ (hpre c)
  exact ⟨fun k => h2 (ix2 0 k), fun k => h3 (ix1 k), fun l k => h4 (ix2 l k), fun k => h5 (ix1 k),
    fun L l k => h6 (ix3 L l k), fun L k => h7 (ix2 L k), fun L l k => h8 (ix3 L l k), fun L k => h9 (ix2 L k),
    fun L k => h10 (ix2 L k), fun L k => h11 (ix2 L k)⟩

-- No layer of the reference writes an argument's buffer.
theorem ref_arg (V : Valuation Cert.ReferenceIdeal.τ Cert.ReferenceIdeal.sig (Elt Ideal)) (r : Ref Cert.ReferenceIdeal.sig .tc)
    (h0 : r ∉ writesL0) (h1 : r ∉ writesL1) (h2 : r ∉ writesL2) (h3 : r ∉ writesL3) :
    after opsL3 (after opsL2 (after opsL1 (after opsL0 V))) (Proc.devRef .tc r) = V (Proc.devRef .tc r) := by
  rw [layer3_keep _ r h3, layer2_keep _ r h2, layer1_keep _ r h1, layer0_keep _ r h0]

theorem all_args {P : Ref Cert.ReferenceIdeal.sig .tc → Prop}
    (h : ∀ r, r ∉ writesL0 → r ∉ writesL1 → r ∉ writesL2 → r ∉ writesL3 → P r) :
    P main_arg0 ∧ P main_arg1 ∧ P main_arg2 ∧ P main_arg3 ∧ P main_arg4 ∧ P main_arg5 ∧ P main_arg6 ∧ P main_arg7 ∧ P main_arg8 ∧ P main_arg9 ∧ P main_arg10 ∧ P main_arg11 :=
  ⟨h _ (by decide) (by decide) (by decide) (by decide),
    h _ (by decide) (by decide) (by decide) (by decide),
    h _ (by decide) (by decide) (by decide) (by decide),
    h _ (by decide) (by decide) (by decide) (by decide),
    h _ (by decide) (by decide) (by decide) (by decide),
    h _ (by decide) (by decide) (by decide) (by decide),
    h _ (by decide) (by decide) (by decide) (by decide),
    h _ (by decide) (by decide) (by decide) (by decide),
    h _ (by decide) (by decide) (by decide) (by decide),
    h _ (by decide) (by decide) (by decide) (by decide),
    h _ (by decide) (by decide) (by decide) (by decide),
    h _ (by decide) (by decide) (by decide) (by decide)⟩

theorem frame_Kernel : Cert.frame_Kernel := fun m ρ _ => Cert.Kernel.Gen.frame m ρ

theorem frame_KernelIdeal : Cert.frame_KernelIdeal := fun m ρ _ => Cert.KernelIdeal.Gen.frame m ρ

theorem frame_ReferenceIdeal : Cert.frame_ReferenceIdeal := fun m ρ _ =>
  (θ_run Cert.ReferenceIdeal.defs _ _).mono (fun r hr c =>
      all_args (P := fun b => r.2.mem ((c.tc : Thread Cert.ReferenceIdeal.nD Cert.ReferenceIdeal.τ).loc b) = m _)
        fun b h0 h1 h2 h3 => (hr c b).trans (ref_arg _ b h0 h1 h2 h3))
    (run_main (F := Ideal) m ρ)

theorem preserves : Cert.preserves_Kernel_KernelIdeal := trivial

-- The launch memories agree on the arguments, so both results are one network function of the same data; the data are
-- reals, and on reals the mean of squares minus the squared mean is the mean of squared deviations.
theorem algebraic : Cert.algebraic_KernelIdeal_ReferenceIdeal := by
  intro m ρ m' ρ' hpre hagree
  refine ⟨fun c => Cert.KernelIdeal.Gen.W16 m ρ c (Proc.devRef .tc Cert.KernelIdeal.main_v144),
    Cert.KernelIdeal.Gen.run_result (F := Ideal) m ρ, ?_⟩
  refine (θ_run Cert.ReferenceIdeal.defs _ _).mono (fun r hr c => ⟨(hr c _).trans ?_,
    all_args (P := fun b => r.2.mem ((c.tc : Thread Cert.ReferenceIdeal.nD Cert.ReferenceIdeal.τ).loc b) = m' _)
      fun b h0 h1 h2 h3 => (hr c b).trans (ref_arg _ b h0 h1 h2 h3)⟩) (run_main (F := Ideal) m' ρ')
  obtain ⟨h0, h1, h2, h3, h4, h5, h6, h7, h8, h9, h10, h11⟩ := hagree c
  have hx : x0K m c = x0R m' c := by unfold x0K x0R; rw [h0, h1, aggdeg_eq]
  have ha : aggFK m c = aggFR m' c := by unfold aggFK aggFR; rw [h0, h1, agg_eq]; rfl
  have hp : pK m c = pR m' c := by unfold pK pR; rw [h2, h3, h4, h5, h6, h7, h8, h9, h10, h11]
  funext idx
  obtain ⟨i, j, rfl⟩ : ∃ i j, idx = ix2 i j := ⟨_, _, eq_ix2 idx⟩
  show _ = Cert.KernelIdeal.Gen.W16 m ρ c (Proc.devRef .tc Cert.KernelIdeal.main_v144) (ix2 i j)
  have hx0 : Real1 (x0K m c) := fun i => aggdegK_real _ _ (ix2 i 0)
  have hag : ∀ f, Real2 f → Real2 (aggFK m c f) := fun f hf i l =>
    aggK_real (h := Cert.KernelIdeal.Val.arr2 f) (fun idx => hf (idx 0) (idx 1)) _ _ (ix2 i l)
  rw [ref_result, kernel_result, ← hx, ← ha, ← hp, Cert.Gin.net_eq hx0 hag (pK_real m hpre c)]

end Cert.Proof.GinClaims

end
-- ==== Proof.lean ====
/-
  A four-layer graph network: each layer sums every node's neighbours into it, applies two affine maps with a clamp at
  zero between them, and normalises each column by its mean and variance before a last clamp. All three programs run
  and leave their arguments as they were. On finite inputs, at the extended reals, the kernel program and the reference
  end with equal results: they differ only in how a column's variance is formed, and on reals the mean of squares
  minus the squared mean is the mean of squared deviations.
-/
import proofs.«427228_j78975858638933_3_alg».proof.Defs
import proofs.«427228_j78975858638933_3_alg».proof.Proof.Final

noncomputable section

namespace Cert.Proof

theorem claim : Cert.Claim := ⟨Cert.Kernel.Gen.facts, Cert.KernelIdeal.Gen.facts, Cert.ReferenceIdeal.Gen.facts, Cert.Pre_finite_inputs.Gen.facts,
  GinClaims.frame_Kernel, GinClaims.frame_KernelIdeal, GinClaims.frame_ReferenceIdeal, GinClaims.preserves, GinClaims.algebraic⟩

end Cert.Proof

end
